-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x64 : Shape := ⟨2, ![8192, 64]⟩
abbrev S4096x64 : Shape := ⟨2, ![4096, 64]⟩
abbrev S2x64x128 : Shape := ⟨3, ![2, 64, 128]⟩
abbrev S2x64 : Shape := ⟨2, ![2, 64]⟩
abbrev S1x64 : Shape := ⟨2, ![1, 64]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S4096x64 : S_.BroadcastsInDim S4096x64 (![] : Fin 0 → Fin S4096x64.rank)
  reducesTo_S4096x64_S_d0_1 : S4096x64.ReducesTo [0, 1] S_
  bcast_S_S2x64x128 : S_.BroadcastsInDim S2x64x128 (![] : Fin 0 → Fin S2x64x128.rank)
  reducesTo_S2x64x128_S_d0_1_2 : S2x64x128.ReducesTo [0, 1, 2] S_
  bcast_S_S2x64 : S_.BroadcastsInDim S2x64 (![] : Fin 0 → Fin S2x64.rank)
  reducesTo_S2x64_S_d0_1 : S2x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x64 .f32) (main_arg12 : FVec F S1 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S2x64x128 .f32) (main_arg8 : FVec F S2x64 .f32) (main_arg9 : FVec F S2x64 .f32) (main_arg10 : FVec F S2x64 .f32) (main_arg11 : FVec F S1x64 .f32) (main_arg12 : FVec F S1 .f32) (main_v33 : IVec S_ 1) : IVec S_ 1 :=
  let main_v34 : FVec F S2x64x128 .f32 := Host.absf main_arg7
  let main_cst_12 : FVec F S_ .f32 := constant S_ .f32 0x7F800000#32
  let main_v35 : FVec F S2x64x128 .f32 := broadcastInDim S2x64x128 ![] bcast_S_S2x64x128 main_cst_12
  let main_v36 : IVec S2x64x128 1 := cmpf .olt main_v34 main_v35
  let main_c_13 : IVec S_ 1 := constantI S_ 1 1#1
  let main_v37 : IVec S_ 1 := (fun x v => Host.reduce IntOp.andi x v reducesTo_S2x64x128_S_d0_1_2 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_arg12 main_v48 main_v49 main_v50

def fn_part1 {F : FTy → Type} [FloatOps F] (main_arg4 : FVec F S2x64 .f32) (main_arg5 : FVec F S2x64 .f32) (main_arg6 : FVec F S2x64 .f32) (main_arg7 : FVec F S2x64x128 .f32) (main_arg8 : FVec F S2x64 .f32) (main_arg9 : FVec F S2x64 .f32) (main_arg10 : FVec F S2x64 .f32) (main_arg11 : FVec F S1x64 .f32) (main_arg12 : FVec F S1 .f32) (main_v13 : IVec S_ 1) (main_v16 : IVec S2x64x128 1) : IVec S_ 1 :=
  let main_c_5 : IVec S_ 1 := constantI S_ 1 1#1
  let main_v17 : IVec S_ 1 := (fun x v => Host.reduce IntOp.andi x v reducesTo_S2x64x128_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg6
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x4096 .f32) (main_arg1 : FVec F S8192x64 .f32) (main_arg2 : FVec F S4096x64 .f32) (main_arg3 : FVec F S2x64x128 .f32) (main_arg4 : FVec F S2x64 .f32) (main_arg5 : FVec F S2x64 .f32) (main_arg6 : FVec F S2x64 .f32) (main_arg7 : FVec F S2x64x128 .f32) (main_arg8 : FVec F S2x64 .f32) (main_arg9 : FVec F S2x64 .f32) (main_arg10 : FVec F S2x64 .f32) (main_arg11 : FVec F S1x64 .f32) (main_arg12 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S2x64x128 .f32 := Host.absf main_arg3
  let main_cst_4 : FVec F S_ .f32 := constant S_ .f32 0x7F800000#32
  let main_v15 : FVec F S2x64x128 .f32 := broadcastInDim S2x64x128 ![] bcast_S_S2x64x128 main_cst_4
  let main_v16 : IVec S2x64x128 1 := cmpf .olt main_v14 main_v15
  fn_part1 (F := F) main_arg4 main_arg5 main_arg6 main_arg7 main_arg8 main_arg9 main_arg10 main_arg11 main_arg12 main_v13 main_v16
-- ==== Kernel.lean ====
abbrev S8192x4096 : Shape := ⟨2, ![8192, 4096]⟩
abbrev S8192x64 : Shape := ⟨2, ![8192, 64]⟩
abbrev S4096x64 : Shape := ⟨2, ![4096, 64]⟩
abbrev S2x64x128 : Shape := ⟨3, ![2, 64, 128]⟩
abbrev S2x64 : Shape := ⟨2, ![2, 64]⟩
abbrev S1x64 : Shape := ⟨2, ![1, 64]⟩
abbrev S1 : Shape := ⟨1, ![1]⟩
abbrev S1x64x128 : Shape := ⟨3, ![1, 64, 128]⟩
abbrev S64x128 : Shape := ⟨2, ![64, 128]⟩
abbrev S128x64 : Shape := ⟨2, ![128, 64]⟩
abbrev S64 : Shape := ⟨1, ![64]⟩
abbrev S4096x65 : Shape := ⟨2, ![4096, 65]⟩
abbrev S256x4096 : Shape := ⟨2, ![256, 4096]⟩
abbrev S256x64 : Shape := ⟨2, ![256, 64]⟩
abbrev S256x1 : Shape := ⟨2, ![256, 1]⟩
abbrev S256x65 : Shape := ⟨2, ![256, 65]⟩
abbrev S4096x1 : Shape := ⟨2, ![4096, 1]⟩
abbrev S4096x128 : Shape := ⟨2, ![4096, 128]⟩
abbrev S4096 : Shape := ⟨1, ![4096]⟩
abbrev S64x1 : Shape := ⟨2, ![64, 1]⟩
abbrev S1x1 : Shape := ⟨2, ![1, 1]⟩
abbrev S256x128 : Shape := ⟨2, ![256, 128]⟩
abbrev S256 : Shape := ⟨1, ![256]⟩

abbrev nBuf : Space → Nat
  | .hbm => 54
  | .vmem => 28
  | .smem => 0
  | _ => 0

abbrev bufTy : (tb : Table) → Fin (tcTables nBuf tb) → BufTy
  | .hbm, ⟨0, _⟩ => ⟨S8192x4096, .f32⟩
  | .hbm, ⟨1, _⟩ => ⟨S8192x64, .f32⟩
  | .hbm, ⟨2, _⟩ => ⟨S4096x64, .f32⟩
  | .hbm, ⟨3, _⟩ => ⟨S2x64x128, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x64x128, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S1x64, .f32⟩
  | .hbm, ⟨12, _⟩ => ⟨S1, .f32⟩
  | .hbm, ⟨13, _⟩ => ⟨S1x64x128, .f32⟩
  | .hbm, ⟨14, _⟩ => ⟨S64x128, .f32⟩
  | .hbm, ⟨15, _⟩ => ⟨S128x64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S1x64, .f32⟩
  | .hbm, ⟨20, _⟩ => ⟨S64, .f32⟩
  | .hbm, ⟨21, _⟩ => ⟨S1x64, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S4096x65, .f32⟩
  | .hbm, ⟨26, _⟩ => ⟨S1x64x128, .f32⟩
  | .hbm, ⟨27, _⟩ => ⟨S64x128, .f32⟩
  | .hbm, ⟨28, _⟩ => ⟨S128x64, .f32⟩
  | .hbm, ⟨29, _⟩ => ⟨S1x64, .f32⟩
  | .hbm, ⟨30, _⟩ => ⟨S64, .f32⟩
  | .hbm, ⟨31, _⟩ => ⟨S1x64, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S1x64x128, .f32⟩
  | .hbm, ⟨39, _⟩ => ⟨S64x128, .f32⟩
  | .hbm, ⟨40, _⟩ => ⟨S128x64, .f32⟩
  | .hbm, ⟨41, _⟩ => ⟨S1x64, .f32⟩
  | .hbm, ⟨42, _⟩ => ⟨S64, .f32⟩
  | .hbm, ⟨43, _⟩ => ⟨S1x64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S64x1, .f32⟩
  | .hbm, ⟨51, _⟩ => ⟨S1x1, .f32⟩
  | .hbm, ⟨52, _⟩ => ⟨S4096x1, .f32⟩
  | .hbm, ⟨53, _⟩ => ⟨S4096, .f32⟩
  | .local _ .vmem, ⟨0, _⟩ => ⟨S256x4096, .f32⟩
  | .local _ .vmem, ⟨1, _⟩ => ⟨S256x4096, .f32⟩
  | .local _ .vmem, ⟨2, _⟩ => ⟨S256x64, .f32⟩
  | .local _ .vmem, ⟨3, _⟩ => ⟨S256x64, .f32⟩
  | .local _ .vmem, ⟨4, _⟩ => ⟨S4096x64, .f32⟩
  | .local _ .vmem, ⟨5, _⟩ => ⟨S128x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S4096x65, .f32⟩
  | .local _ .vmem, ⟨10, _⟩ => ⟨S4096x65, .f32⟩
  | .local _ .vmem, ⟨11, _⟩ => ⟨S256x4096, .f32⟩
  | .local _ .vmem, ⟨12, _⟩ => ⟨S256x4096, .f32⟩
  | .local _ .vmem, ⟨13, _⟩ => ⟨S256x64, .f32⟩
  | .local _ .vmem, ⟨14, _⟩ => ⟨S256x64, .f32⟩
  | .local _ .vmem, ⟨15, _⟩ => ⟨S4096x65, .f32⟩
  | .local _ .vmem, ⟨16, _⟩ => ⟨S128x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S128x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S4096x1, .f32⟩
  | .local _ .vmem, ⟨27, _⟩ => ⟨S4096x65, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v15 : BitVec 1 := Scalar.cmpi .eq arg0 c31_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x65 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v64 : BitVec 1 := Scalar.cmpi .eq arg0 c31_i32
  let v65 : BitVec 32 := Scalar.extui v64
  let c0_i32_29 : BitVec 32 := 0#32
  let v66 : BitVec 1 := Scalar.cmpi .ne v65 c0_i32_29
  v66

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x65 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S4096x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

class Facts₀ : Prop where
  slices_S2x64x128_S1x64x128_0_0_0 : S2x64x128.Slices ![0, 0, 0] S1x64x128
  shapeCasts_S1x64x128_S64x128 : S1x64x128.ShapeCasts S64x128
  transposes_S64x128_S128x64_1_0 : S64x128.Transposes [1, 0] S128x64
  slices_S2x64_S1x64_0_0 : S2x64.Slices ![0, 0] S1x64
  shapeCasts_S1x64_S64 : S1x64.ShapeCasts S64
  shapeCasts_S64_S1x64 : S64.ShapeCasts S1x64
  inb_S4096x65_S4096x65_0_0 : ∀ a, (![0, 0] : Fin 2 → Nat) a + S4096x65.size a ≤ S4096x65.size a
  h_S4096x65 : 0 < S4096x65.numel
  shapeCasts_S4096x65_S4096x65 : S4096x65.ShapeCasts S4096x65
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  concatenates_S256x64_S256x1_S256x65_d1 : Shape.Concatenates [S256x64, S256x1] S256x65 1
  slices_S4096x65_o0_64_S4096x1 : S4096x65.Slices ![0, 64] S4096x1
  slices_S4096x65_o0_0_S4096x64 : S4096x65.Slices ![0, 0] S4096x64
  broadcasts_S4096x1_S4096x64 : S4096x1.Broadcasts S4096x64
  inb_S4096x64_S4096x64_0_0 : ∀ a, (![0, 0] : Fin 2 → Nat) a + S4096x64.size a ≤ S4096x64.size a
  h_S4096x64 : 0 < S4096x64.numel
  concatenates_S4096x64_S4096x64_S4096x128_d1 : Shape.Concatenates [S4096x64, S4096x64] S4096x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  concatenates_S4096x64_S4096x1_S4096x65_d1 : Shape.Concatenates [S4096x64, S4096x1] S4096x65 1
  slices_S2x64x128_S1x64x128_1_0_0 : S2x64x128.Slices ![1, 0, 0] S1x64x128
  slices_S2x64_S1x64_1_0 : S2x64.Slices ![1, 0] S1x64
  shapeCasts_S1x64_S64x1 : S1x64.ShapeCasts S64x1
  shapeCasts_S1_S1x1 : S1.ShapeCasts S1x1
  slices_S256x65_o0_64_S256x1 : S256x65.Slices ![0, 64] S256x1
  slices_S256x65_o0_0_S256x64 : S256x65.Slices ![0, 0] S256x64
  broadcasts_S256x1_S256x64 : S256x1.Broadcasts S256x64
  concatenates_S256x64_S256x64_S256x128_d1 : Shape.Concatenates [S256x64, S256x64] S256x128 1
  broadcasts_S1x64_S256x64 : S1x64.Broadcasts S256x64
  reduces_S256x64_S256 : S256x64.Reduces [1] S256
  shapeCasts_S256_S256x1 : S256.ShapeCasts S256x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096 : S4096x1.ShapeCasts S4096
  dot_S256x4096_S256x65_S4096x65_0_0_1_1_n_n_wf : DotDims.WF S256x4096 S256x65 S4096x65 [0] [0] [1] [1] [] []
  dot_S4096x128_S128x64_S4096x64_1_0_0_1_n_n_wf : DotDims.WF S4096x128 S128x64 S4096x64 [1] [0] [0] [1] [] []
  dot_S256x4096_S4096x65_S256x65_1_0_0_1_n_n_wf : DotDims.WF S256x4096 S4096x65 S256x65 [1] [0] [0] [1] [] []
  dot_S256x128_S128x64_S256x64_1_0_0_1_n_n_wf : DotDims.WF S256x128 S128x64 S256x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S8192x64.size a
  hwx0_1 : ∀ i : grid0.Coords, EltTy.bits .f32 = 32 ∨ (Rect.block (s := S8192x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4096x65.size a ≤ S4096x65.size a
  hwx0_7 : ∀ i : grid0.Coords, EltTy.bits .f32 = 32 ∨ (Rect.block (s := S4096x65) S4096x65.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S8192x64.size a
  hwx1_1 : ∀ i : grid1.Coords, EltTy.bits .f32 = 32 ∨ (Rect.block (s := S8192x64) S256x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x65.size a ≤ S4096x65.size a
  hwx1_2 : ∀ i : grid1.Coords, EltTy.bits .f32 = 32 ∨ (Rect.block (s := S4096x65) S4096x65.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x64.size a ≤ S128x64.size a
  hwx1_7 : ∀ i : grid1.Coords, EltTy.bits .f32 = 32 ∨ (Rect.block (s := S128x64) S128x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x1.size a ≤ S64x1.size a
  hwx1_11 : ∀ i : grid1.Coords, EltTy.bits .f32 = 32 ∨ (Rect.block (s := S64x1) S64x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S4096x1.size a ≤ S4096x1.size a
  hwx1_13 : ∀ i : grid1.Coords, EltTy.bits .f32 = 32 ∨ (Rect.block (s := S4096x1) S4096x1.size (cc1_transform_13 i) (hinb1_13 i)).WholeWords (EltTy.packing .f32)

variable [Facts₀]

def dot_S256x4096_S256x65_S4096x65_0_0_1_1_n_n : DotDims S256x4096 S256x65 S4096x65 where
  lhsContracting := [0]
  rhsContracting := [0]
  lhsNonContracting := [1]
  rhsNonContracting := [1]
  lhsBatch := []
  rhsBatch := []
  wf := dot_S256x4096_S256x65_S4096x65_0_0_1_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S256x4096_S4096x65_S256x65_1_0_0_1_n_n : DotDims S256x4096 S4096x65 S256x65 where
  lhsContracting := [1]
  rhsContracting := [0]
  lhsNonContracting := [0]
  rhsNonContracting := [1]
  lhsBatch := []
  rhsBatch := []
  wf := dot_S256x4096_S4096x65_S256x65_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S4096x65.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4096x65.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S128x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v33) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v36) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v37) S64x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v38) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v39) S4096x1.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev idle1 : Fin 14 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k1_cond2 i == 1#1) | ⟨_ + 14, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x64 : Shape := ⟨2, ![8192, 64]⟩
abbrev S4096x64 : Shape := ⟨2, ![4096, 64]⟩
abbrev S2x64x128 : Shape := ⟨3, ![2, 64, 128]⟩
abbrev S2x64 : Shape := ⟨2, ![2, 64]⟩
abbrev S1x64 : Shape := ⟨2, ![1, 64]⟩
abbrev S1 : Shape := ⟨1, ![1]⟩
abbrev S_ : Shape := ⟨0, ![]⟩
abbrev S4096 : Shape := ⟨1, ![4096]⟩
abbrev S8192 : Shape := ⟨1, ![8192]⟩
abbrev S4096x8192 : Shape := ⟨2, ![4096, 8192]⟩
abbrev S4096x1 : Shape := ⟨2, ![4096, 1]⟩
abbrev S4096x128 : Shape := ⟨2, ![4096, 128]⟩
abbrev S1x64x128 : Shape := ⟨3, ![1, 64, 128]⟩
abbrev S64x128 : Shape := ⟨2, ![64, 128]⟩
abbrev S128x64 : Shape := ⟨2, ![128, 64]⟩
abbrev S64 : Shape := ⟨1, ![64]⟩
abbrev S8192x1 : Shape := ⟨2, ![8192, 1]⟩
abbrev S8192x128 : Shape := ⟨2, ![8192, 128]⟩
abbrev S64x1 : Shape := ⟨2, ![64, 1]⟩
abbrev S1x1 : Shape := ⟨2, ![1, 1]⟩

abbrev nBuf : Space → Nat
  | .hbm => 308
  | .vmem => 0
  | .smem => 0
  | _ => 0

abbrev hbmTy0_0 (i : Nat) : BufTy := match i % 128 with
  | 0 => ⟨S8192x4096, .f32⟩
  | 1 => ⟨S8192x64, .f32⟩
  | 2 => ⟨S4096x64, .f32⟩
  | 3 => ⟨S2x64x128, .f32⟩
  | 4 => ⟨S2x64, .f32⟩
  | 5 => ⟨S2x64, .f32⟩
  | 6 => ⟨S2x64, .f32⟩
  | 7 => ⟨S2x64x128, .f32⟩
  | 8 => ⟨S2x64, .f32⟩
  | 9 => ⟨S2x64, .f32⟩
  | 10 => ⟨S2x64, .f32⟩
  | 11 => ⟨S1x64, .f32⟩
  | 12 => ⟨S1, .f32⟩
  | 13 => ⟨S_, .f32⟩
  | 14 => ⟨S4096, .f32⟩
  | 15 => ⟨S_, .f32⟩
  | 16 => ⟨S_, .f32⟩
  | 17 => ⟨S4096, .f32⟩
  | 18 => ⟨S4096, .f32⟩
  | 19 => ⟨S_, .f32⟩
  | 20 => ⟨S8192, .f32⟩
  | 21 => ⟨S_, .f32⟩
  | 22 => ⟨S_, .f32⟩
  | 23 => ⟨S8192, .f32⟩
  | 24 => ⟨S8192, .f32⟩
  | 25 => ⟨S4096x8192, .f32⟩
  | 26 => ⟨S4096x64, .f32⟩
  | 27 => ⟨S4096x1, .f32⟩
  | 28 => ⟨S4096x64, .f32⟩
  | 29 => ⟨S4096x64, .f32⟩
  | 30 => ⟨S4096x128, .f32⟩
  | 31 => ⟨S1x64x128, .f32⟩
  | 32 => ⟨S64x128, .f32⟩
  | 33 => ⟨S128x64, .f32⟩
  | 34 => ⟨S4096x64, .f32⟩
  | 35 => ⟨S1x64, .f32⟩
  | 36 => ⟨S64, .f32⟩
  | 37 => ⟨S1x64, .f32⟩
  | 38 => ⟨S4096x64, .f32⟩
  | 39 => ⟨S4096x64, .f32⟩
  | 40 => ⟨S_, .f32⟩
  | 41 => ⟨S4096x64, .f32⟩
  | 42 => ⟨S4096x64, .f32⟩
  | 43 => ⟨S1x64, .f32⟩
  | 44 => ⟨S64, .f32⟩
  | 45 => ⟨S1x64, .f32⟩
  | 46 => ⟨S64, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .i32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S4096x64, .f32⟩
  | 61 => ⟨S4096x64, .f32⟩
  | 62 => ⟨S4096x64, .f32⟩
  | 63 => ⟨S_, .f32⟩
  | 64 => ⟨S_, .f32⟩
  | 65 => ⟨S_, .f32⟩
  | 66 => ⟨S_, .f32⟩
  | 67 => ⟨S4096, .f32⟩
  | 68 => ⟨S4096x1, .f32⟩
  | 69 => ⟨S4096x1, .f32⟩
  | 70 => ⟨S4096x1, .f32⟩
  | 71 => ⟨S_, .f32⟩
  | 72 => ⟨S_, .i1⟩
  | 73 => ⟨S_, .f32⟩
  | 74 => ⟨S_, .f32⟩
  | 75 => ⟨S4096x1, .f32⟩
  | 76 => ⟨S4096x1, .f32⟩
  | 77 => ⟨S4096x64, .f32⟩
  | 78 => ⟨S4096x64, .f32⟩
  | 79 => ⟨S_, .f32⟩
  | 80 => ⟨S4096x1, .f32⟩
  | 81 => ⟨S4096x1, .f32⟩
  | 82 => ⟨S4096x1, .f32⟩
  | 83 => ⟨S4096x64, .f32⟩
  | 84 => ⟨S4096x64, .f32⟩
  | 85 => ⟨S1x64, .f32⟩
  | 86 => ⟨S4096x64, .f32⟩
  | 87 => ⟨S4096x64, .f32⟩
  | 88 => ⟨S1x64, .f32⟩
  | 89 => ⟨S4096x64, .f32⟩
  | 90 => ⟨S4096x64, .f32⟩
  | 91 => ⟨S4096x64, .f32⟩
  | 92 => ⟨S8192x64, .f32⟩
  | 93 => ⟨S8192x1, .f32⟩
  | 94 => ⟨S8192x64, .f32⟩
  | 95 => ⟨S8192x64, .f32⟩
  | 96 => ⟨S8192x128, .f32⟩
  | 97 => ⟨S1x64x128, .f32⟩
  | 98 => ⟨S64x128, .f32⟩
  | 99 => ⟨S128x64, .f32⟩
  | 100 => ⟨S8192x64, .f32⟩
  | 101 => ⟨S1x64, .f32⟩
  | 102 => ⟨S64, .f32⟩
  | 103 => ⟨S1x64, .f32⟩
  | 104 => ⟨S8192x64, .f32⟩
  | 105 => ⟨S8192x64, .f32⟩
  | 106 => ⟨S_, .f32⟩
  | 107 => ⟨S8192x64, .f32⟩
  | 108 => ⟨S8192x64, .f32⟩
  | 109 => ⟨S1x64, .f32⟩
  | 110 => ⟨S64, .f32⟩
  | 111 => ⟨S1x64, .f32⟩
  | 112 => ⟨S64, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S_, .i32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S8192x64, .f32⟩
  | 127 => ⟨S8192x64, .f32⟩
  | _ => ⟨S8192x4096, .f32⟩

abbrev hbmTy0_1 (i : Nat) : BufTy := match i % 128 with
  | 0 => ⟨S8192x64, .f32⟩
  | 1 => ⟨S_, .f32⟩
  | 2 => ⟨S_, .f32⟩
  | 3 => ⟨S_, .f32⟩
  | 4 => ⟨S_, .f32⟩
  | 5 => ⟨S8192, .f32⟩
  | 6 => ⟨S8192x1, .f32⟩
  | 7 => ⟨S8192x1, .f32⟩
  | 8 => ⟨S8192x1, .f32⟩
  | 9 => ⟨S_, .f32⟩
  | 10 => ⟨S_, .i1⟩
  | 11 => ⟨S_, .f32⟩
  | 12 => ⟨S_, .f32⟩
  | 13 => ⟨S8192x1, .f32⟩
  | 14 => ⟨S8192x1, .f32⟩
  | 15 => ⟨S8192x64, .f32⟩
  | 16 => ⟨S8192x64, .f32⟩
  | 17 => ⟨S_, .f32⟩
  | 18 => ⟨S8192x1, .f32⟩
  | 19 => ⟨S8192x1, .f32⟩
  | 20 => ⟨S8192x1, .f32⟩
  | 21 => ⟨S8192x64, .f32⟩
  | 22 => ⟨S8192x64, .f32⟩
  | 23 => ⟨S1x64, .f32⟩
  | 24 => ⟨S8192x64, .f32⟩
  | 25 => ⟨S8192x64, .f32⟩
  | 26 => ⟨S1x64, .f32⟩
  | 27 => ⟨S8192x64, .f32⟩
  | 28 => ⟨S8192x64, .f32⟩
  | 29 => ⟨S8192x64, .f32⟩
  | 30 => ⟨S4096x8192, .f32⟩
  | 31 => ⟨S4096x64, .f32⟩
  | 32 => ⟨S4096x1, .f32⟩
  | 33 => ⟨S4096x64, .f32⟩
  | 34 => ⟨S4096x64, .f32⟩
  | 35 => ⟨S4096x128, .f32⟩
  | 36 => ⟨S1x64x128, .f32⟩
  | 37 => ⟨S64x128, .f32⟩
  | 38 => ⟨S128x64, .f32⟩
  | 39 => ⟨S4096x64, .f32⟩
  | 40 => ⟨S1x64, .f32⟩
  | 41 => ⟨S64, .f32⟩
  | 42 => ⟨S1x64, .f32⟩
  | 43 => ⟨S4096x64, .f32⟩
  | 44 => ⟨S4096x64, .f32⟩
  | 45 => ⟨S_, .f32⟩
  | 46 => ⟨S4096x64, .f32⟩
  | 47 => ⟨S4096x64, .f32⟩
  | 48 => ⟨S1x64, .f32⟩
  | 49 => ⟨S64, .f32⟩
  | 50 => ⟨S1x64, .f32⟩
  | 51 => ⟨S64, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .i32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S4096x64, .f32⟩
  | 66 => ⟨S4096x64, .f32⟩
  | 67 => ⟨S4096x64, .f32⟩
  | 68 => ⟨S_, .f32⟩
  | 69 => ⟨S_, .f32⟩
  | 70 => ⟨S_, .f32⟩
  | 71 => ⟨S_, .f32⟩
  | 72 => ⟨S4096, .f32⟩
  | 73 => ⟨S4096x1, .f32⟩
  | 74 => ⟨S4096x1, .f32⟩
  | 75 => ⟨S4096x1, .f32⟩
  | 76 => ⟨S_, .f32⟩
  | 77 => ⟨S_, .i1⟩
  | 78 => ⟨S_, .f32⟩
  | 79 => ⟨S_, .f32⟩
  | 80 => ⟨S4096x1, .f32⟩
  | 81 => ⟨S4096x1, .f32⟩
  | 82 => ⟨S4096x64, .f32⟩
  | 83 => ⟨S4096x64, .f32⟩
  | 84 => ⟨S_, .f32⟩
  | 85 => ⟨S4096x1, .f32⟩
  | 86 => ⟨S4096x1, .f32⟩
  | 87 => ⟨S4096x1, .f32⟩
  | 88 => ⟨S4096x64, .f32⟩
  | 89 => ⟨S4096x64, .f32⟩
  | 90 => ⟨S1x64, .f32⟩
  | 91 => ⟨S4096x64, .f32⟩
  | 92 => ⟨S4096x64, .f32⟩
  | 93 => ⟨S1x64, .f32⟩
  | 94 => ⟨S4096x64, .f32⟩
  | 95 => ⟨S4096x64, .f32⟩
  | 96 => ⟨S4096x64, .f32⟩
  | 97 => ⟨S8192x64, .f32⟩
  | 98 => ⟨S8192x1, .f32⟩
  | 99 => ⟨S8192x64, .f32⟩
  | 100 => ⟨S8192x64, .f32⟩
  | 101 => ⟨S8192x128, .f32⟩
  | 102 => ⟨S1x64x128, .f32⟩
  | 103 => ⟨S64x128, .f32⟩
  | 104 => ⟨S128x64, .f32⟩
  | 105 => ⟨S8192x64, .f32⟩
  | 106 => ⟨S1x64, .f32⟩
  | 107 => ⟨S64, .f32⟩
  | 108 => ⟨S1x64, .f32⟩
  | 109 => ⟨S8192x64, .f32⟩
  | 110 => ⟨S8192x64, .f32⟩
  | 111 => ⟨S_, .f32⟩
  | 112 => ⟨S8192x64, .f32⟩
  | 113 => ⟨S8192x64, .f32⟩
  | 114 => ⟨S1x64, .f32⟩
  | 115 => ⟨S64, .f32⟩
  | 116 => ⟨S1x64, .f32⟩
  | 117 => ⟨S64, .f32⟩
  | 118 => ⟨S_, .f32⟩
  | 119 => ⟨S8192, .f32⟩
  | 120 => ⟨S8192x1, .f32⟩
  | 121 => ⟨S_, .f32⟩
  | 122 => ⟨S8192x1, .f32⟩
  | 123 => ⟨S8192x1, .f32⟩
  | 124 => ⟨S_, .i32⟩
  | 125 => ⟨S_, .f32⟩
  | 126 => ⟨S8192, .f32⟩
  | 127 => ⟨S8192x1, .f32⟩
  | _ => ⟨S8192x4096, .f32⟩

abbrev hbmTy0_2 (i : Nat) : BufTy := match i % 128 with
  | 0 => ⟨S_, .f32⟩
  | 1 => ⟨S8192x1, .f32⟩
  | 2 => ⟨S8192x1, .f32⟩
  | 3 => ⟨S8192x64, .f32⟩
  | 4 => ⟨S8192x64, .f32⟩
  | 5 => ⟨S8192x64, .f32⟩
  | 6 => ⟨S_, .f32⟩
  | 7 => ⟨S_, .f32⟩
  | 8 => ⟨S_, .f32⟩
  | 9 => ⟨S_, .f32⟩
  | 10 => ⟨S8192, .f32⟩
  | 11 => ⟨S8192x1, .f32⟩
  | 12 => ⟨S8192x1, .f32⟩
  | 13 => ⟨S8192x1, .f32⟩
  | 14 => ⟨S_, .f32⟩
  | 15 => ⟨S_, .i1⟩
  | 16 => ⟨S_, .f32⟩
  | 17 => ⟨S_, .f32⟩
  | 18 => ⟨S8192x1, .f32⟩
  | 19 => ⟨S8192x1, .f32⟩
  | 20 => ⟨S8192x64, .f32⟩
  | 21 => ⟨S8192x64, .f32⟩
  | 22 => ⟨S_, .f32⟩
  | 23 => ⟨S8192x1, .f32⟩
  | 24 => ⟨S8192x1, .f32⟩
  | 25 => ⟨S8192x1, .f32⟩
  | 26 => ⟨S8192x64, .f32⟩
  | 27 => ⟨S8192x64, .f32⟩
  | 28 => ⟨S1x64, .f32⟩
  | 29 => ⟨S8192x64, .f32⟩
  | 30 => ⟨S8192x64, .f32⟩
  | 31 => ⟨S1x64, .f32⟩
  | 32 => ⟨S8192x64, .f32⟩
  | 33 => ⟨S8192x64, .f32⟩
  | 34 => ⟨S8192x64, .f32⟩
  | 35 => ⟨S64x1, .f32⟩
  | 36 => ⟨S4096x1, .f32⟩
  | 37 => ⟨S1x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x1, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v1 : Ref sig .tc := ⟨.hbm, 18, rfl⟩
abbrev main_cst_1 : Ref sig .tc := ⟨.hbm, 19, rfl⟩
abbrev main_v2 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call2_cst : Ref sig .tc := ⟨.hbm, 40, rfl⟩
abbrev main_call2_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_c : Ref sig .tc := ⟨.hbm, 53, rfl⟩
abbrev main_call3_cst : Ref sig .tc := ⟨.hbm, 54, rfl⟩
abbrev main_call3_v0 : Ref sig .tc := ⟨.hbm, 55, rfl⟩
abbrev main_call3_v1 : Ref sig .tc := ⟨.hbm, 56, rfl⟩
abbrev main_call3_cst_0 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_cst_1 : Ref sig .tc := ⟨.hbm, 64, rfl⟩
abbrev main_call3_v8 : Ref sig .tc := ⟨.hbm, 65, rfl⟩
abbrev main_call3_cst_2 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_v12 : Ref sig .tc := ⟨.hbm, 70, rfl⟩
abbrev main_call3_cst_3 : Ref sig .tc := ⟨.hbm, 71, rfl⟩
abbrev main_call3_v13 : Ref sig .tc := ⟨.hbm, 72, rfl⟩
abbrev main_call3_cst_4 : Ref sig .tc := ⟨.hbm, 73, rfl⟩
abbrev main_call3_call0_v0 : Ref sig .tc := ⟨.hbm, 74, rfl⟩
abbrev main_call3_call0_v1 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_5 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_call4_cst : Ref sig .tc := ⟨.hbm, 106, rfl⟩
abbrev main_call4_v0 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_6 : Ref sig .tc := ⟨.hbm, 113, rfl⟩
abbrev main_v62 : Ref sig .tc := ⟨.hbm, 114, rfl⟩
abbrev main_v63 : Ref sig .tc := ⟨.hbm, 115, rfl⟩
abbrev main_cst_7 : Ref sig .tc := ⟨.hbm, 116, rfl⟩
abbrev main_v64 : Ref sig .tc := ⟨.hbm, 117, rfl⟩
abbrev main_v65 : Ref sig .tc := ⟨.hbm, 118, rfl⟩
abbrev main_c_8 : Ref sig .tc := ⟨.hbm, 119, rfl⟩
abbrev main_call5_cst : Ref sig .tc := ⟨.hbm, 120, rfl⟩
abbrev main_call5_v0 : Ref sig .tc := ⟨.hbm, 121, rfl⟩
abbrev main_call5_v1 : Ref sig .tc := ⟨.hbm, 122, rfl⟩
abbrev main_call5_cst_0 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_call5_v5 : Ref sig .tc := ⟨.hbm, 127, rfl⟩
abbrev main_call5_v6 : Ref sig .tc := ⟨.hbm, 128, rfl⟩
abbrev main_call5_v7 : Ref sig .tc := ⟨.hbm, 129, rfl⟩
abbrev main_call5_cst_1 : Ref sig .tc := ⟨.hbm, 130, rfl⟩
abbrev main_call5_v8 : Ref sig .tc := ⟨.hbm, 131, rfl⟩
abbrev main_call5_cst_2 : Ref sig .tc := ⟨.hbm, 132, rfl⟩
abbrev main_call5_v9 : Ref sig .tc := ⟨.hbm, 133, rfl⟩
abbrev main_call5_v10 : Ref sig .tc := ⟨.hbm, 134, rfl⟩
abbrev main_call5_v11 : Ref sig .tc := ⟨.hbm, 135, rfl⟩
abbrev main_call5_v12 : Ref sig .tc := ⟨.hbm, 136, rfl⟩
abbrev main_call5_cst_3 : Ref sig .tc := ⟨.hbm, 137, rfl⟩
abbrev main_call5_v13 : Ref sig .tc := ⟨.hbm, 138, rfl⟩
abbrev main_call5_cst_4 : Ref sig .tc := ⟨.hbm, 139, rfl⟩
abbrev main_call5_call0_v0 : Ref sig .tc := ⟨.hbm, 140, rfl⟩
abbrev main_call5_call0_v1 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_cst_9 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_call6_cst : Ref sig .tc := ⟨.hbm, 173, rfl⟩
abbrev main_call6_v0 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_cst_10 : Ref sig .tc := ⟨.hbm, 180, rfl⟩
abbrev main_v101 : Ref sig .tc := ⟨.hbm, 181, rfl⟩
abbrev main_v102 : Ref sig .tc := ⟨.hbm, 182, rfl⟩
abbrev main_cst_11 : Ref sig .tc := ⟨.hbm, 183, rfl⟩
abbrev main_v103 : Ref sig .tc := ⟨.hbm, 184, rfl⟩
abbrev main_v104 : Ref sig .tc := ⟨.hbm, 185, rfl⟩
abbrev main_c_12 : Ref sig .tc := ⟨.hbm, 186, rfl⟩
abbrev main_call7_cst : Ref sig .tc := ⟨.hbm, 187, rfl⟩
abbrev main_call7_v0 : Ref sig .tc := ⟨.hbm, 188, rfl⟩
abbrev main_call7_v1 : Ref sig .tc := ⟨.hbm, 189, rfl⟩
abbrev main_call7_cst_0 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_call7_v5 : Ref sig .tc := ⟨.hbm, 194, rfl⟩
abbrev main_call7_v6 : Ref sig .tc := ⟨.hbm, 195, rfl⟩
abbrev main_call7_v7 : Ref sig .tc := ⟨.hbm, 196, rfl⟩
abbrev main_call7_cst_1 : Ref sig .tc := ⟨.hbm, 197, rfl⟩
abbrev main_call7_v8 : Ref sig .tc := ⟨.hbm, 198, rfl⟩
abbrev main_call7_cst_2 : Ref sig .tc := ⟨.hbm, 199, rfl⟩
abbrev main_call7_v9 : Ref sig .tc := ⟨.hbm, 200, rfl⟩
abbrev main_call7_v10 : Ref sig .tc := ⟨.hbm, 201, rfl⟩
abbrev main_call7_v11 : Ref sig .tc := ⟨.hbm, 202, rfl⟩
abbrev main_call7_v12 : Ref sig .tc := ⟨.hbm, 203, rfl⟩
abbrev main_call7_cst_3 : Ref sig .tc := ⟨.hbm, 204, rfl⟩
abbrev main_call7_v13 : Ref sig .tc := ⟨.hbm, 205, rfl⟩
abbrev main_call7_cst_4 : Ref sig .tc := ⟨.hbm, 206, rfl⟩
abbrev main_call7_call0_v0 : Ref sig .tc := ⟨.hbm, 207, rfl⟩
abbrev main_call7_call0_v1 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_cst_13 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_call8_cst : Ref sig .tc := ⟨.hbm, 239, rfl⟩
abbrev main_call8_v0 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_cst_14 : Ref sig .tc := ⟨.hbm, 246, rfl⟩
abbrev main_v139 : Ref sig .tc := ⟨.hbm, 247, rfl⟩
abbrev main_v140 : Ref sig .tc := ⟨.hbm, 248, rfl⟩
abbrev main_cst_15 : Ref sig .tc := ⟨.hbm, 249, rfl⟩
abbrev main_v141 : Ref sig .tc := ⟨.hbm, 250, rfl⟩
abbrev main_v142 : Ref sig .tc := ⟨.hbm, 251, rfl⟩
abbrev main_c_16 : Ref sig .tc := ⟨.hbm, 252, rfl⟩
abbrev main_call9_cst : Ref sig .tc := ⟨.hbm, 253, rfl⟩
abbrev main_call9_v0 : Ref sig .tc := ⟨.hbm, 254, rfl⟩
abbrev main_call9_v1 : Ref sig .tc := ⟨.hbm, 255, rfl⟩
abbrev main_call9_cst_0 : Ref sig .tc := ⟨.hbm, 256, rfl⟩
abbrev main_call9_v2 : Ref sig .tc := ⟨.hbm, 257, rfl⟩
abbrev main_call9_v3 : Ref sig .tc := ⟨.hbm, 258, rfl⟩
abbrev main_call9_v4 : Ref sig .tc := ⟨.hbm, 259, rfl⟩
abbrev main_call9_v5 : Ref sig .tc := ⟨.hbm, 260, rfl⟩
abbrev main_call9_v6 : Ref sig .tc := ⟨.hbm, 261, rfl⟩
abbrev main_call9_v7 : Ref sig .tc := ⟨.hbm, 262, rfl⟩
abbrev main_call9_cst_1 : Ref sig .tc := ⟨.hbm, 263, rfl⟩
abbrev main_call9_v8 : Ref sig .tc := ⟨.hbm, 264, rfl⟩
abbrev main_call9_cst_2 : Ref sig .tc := ⟨.hbm, 265, rfl⟩
abbrev main_call9_v9 : Ref sig .tc := ⟨.hbm, 266, rfl⟩
abbrev main_call9_v10 : Ref sig .tc := ⟨.hbm, 267, rfl⟩
abbrev main_call9_v11 : Ref sig .tc := ⟨.hbm, 268, rfl⟩
abbrev main_call9_v12 : Ref sig .tc := ⟨.hbm, 269, rfl⟩
abbrev main_call9_cst_3 : Ref sig .tc := ⟨.hbm, 270, rfl⟩
abbrev main_call9_v13 : Ref sig .tc := ⟨.hbm, 271, rfl⟩
abbrev main_call9_cst_4 : Ref sig .tc := ⟨.hbm, 272, rfl⟩
abbrev main_call9_call0_v0 : Ref sig .tc := ⟨.hbm, 273, rfl⟩
abbrev main_call9_call0_v1 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_cst_17 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_v152 : Ref sig .tc := ⟨.hbm, 285, rfl⟩
abbrev main_v153 : Ref sig .tc := ⟨.hbm, 286, rfl⟩
abbrev main_v154 : Ref sig .tc := ⟨.hbm, 287, rfl⟩
abbrev main_v155 : Ref sig .tc := ⟨.hbm, 288, rfl⟩
abbrev main_v156 : Ref sig .tc := ⟨.hbm, 289, rfl⟩
abbrev main_v157 : Ref sig .tc := ⟨.hbm, 290, rfl⟩
abbrev main_v158 : Ref sig .tc := ⟨.hbm, 291, rfl⟩
abbrev main_v159 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_18 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_cst_19 : Ref sig .tc := ⟨.hbm, 301, rfl⟩
abbrev main_v167 : Ref sig .tc := ⟨.hbm, 302, rfl⟩
abbrev main_v168 : Ref sig .tc := ⟨.hbm, 303, rfl⟩
abbrev main_cst_20 : Ref sig .tc := ⟨.hbm, 304, rfl⟩
abbrev main_v169 : Ref sig .tc := ⟨.hbm, 305, rfl⟩
abbrev main_v170 : Ref sig .tc := ⟨.hbm, 306, rfl⟩
abbrev main_v171 : Ref sig .tc := ⟨.hbm, 307, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel
  bcast_S_S4096 : S_.BroadcastsInDim S4096 (![] : Fin 0 → Fin S4096.rank)
  reducesTo_S8192x4096_S8192_d1 : S8192x4096.ReducesTo [1] S8192
  bcast_S_S8192 : S_.BroadcastsInDim S8192 (![] : Fin 0 → Fin S8192.rank)
  transposes_S8192x4096_S4096x8192_1_0 : S8192x4096.Transposes [1, 0] S4096x8192
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  concatenates_S4096x64_S4096x64_S4096x128_d1 : Shape.Concatenates [S4096x64, S4096x64] S4096x128 1
  slices_S2x64x128_S1x64x128_0_0_0 : S2x64x128.Slices ![0, 0, 0] S1x64x128
  shapeCasts_S1x64x128_S64x128 : S1x64x128.ShapeCasts S64x128
  transposes_S64x128_S128x64_1_0 : S64x128.Transposes [1, 0] S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  reducesTo_S4096x64_S4096_d1 : S4096x64.ReducesTo [1] S4096
  bcast_S_S4096x1 : S_.BroadcastsInDim S4096x1 (![] : Fin 0 → Fin S4096x1.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  concatenates_S8192x64_S8192x64_S8192x128_d1 : Shape.Concatenates [S8192x64, S8192x64] S8192x128 1
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  bcast_S_S8192x1 : S_.BroadcastsInDim S8192x1 (![] : Fin 0 → Fin S8192x1.rank)
  slices_S2x64x128_S1x64x128_1_0_0 : S2x64x128.Slices ![1, 0, 0] S1x64x128
  slices_S2x64_S1x64_1_0 : S2x64.Slices ![1, 0] S1x64
  transposes_S1x64_S64x1_1_0 : S1x64.Transposes [1, 0] S64x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  shapeCasts_S4096x1_S4096 : S4096x1.ShapeCasts S4096
  dot_S4096x8192_S8192x64_S4096x64_1_0_0_1_n_n_wf : DotDims.WF S4096x8192 S8192x64 S4096x64 [1] [0] [0] [1] [] []
  dot_S4096x128_S128x64_S4096x64_1_0_0_1_n_n_wf : DotDims.WF S4096x128 S128x64 S4096x64 [1] [0] [0] [1] [] []
  dot_S8192x4096_S4096x64_S8192x64_1_0_0_1_n_n_wf : DotDims.WF S8192x4096 S4096x64 S8192x64 [1] [0] [0] [1] [] []
  dot_S8192x128_S128x64_S8192x64_1_0_0_1_n_n_wf : DotDims.WF S8192x128 S128x64 S8192x64 [1] [0] [0] [1] [] []
  dot_S4096x64_S64x1_S4096x1_1_0_0_1_n_n_wf : DotDims.WF S4096x64 S64x1 S4096x1 [1] [0] [0] [1] [] []

variable [Facts₀]

def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.LibOwns.lean ====
import Idealize.ShloMosaic.Lib.Pipeline.FrameBody
import Idealize.ShloMosaic.Lib.Ring

noncomputable section

namespace Idealize.ShloMosaic

open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A whole memref owned at `X` is the points-to of its elements at the raw contents that read `X`. -/
theorem owns_unread (c : Thread nD τ) {sp : Space} {sh : Shape} {e : EltTy} {m : Memref sig c.2.kind sp sh e} (h : m.IsWhole) (q : PosShare TreeShare) (X : sh.Idx → Val e) :
    (owns c m q X : sProp 𝕄) = (m.view.loc c ↦[m.view.set]{q} h.unread X) := by
  have h₁ : (owns c m q X : sProp 𝕄) ⊢ (m.view.loc c ↦[m.view.set]{q} h.unread X : sProp 𝕄) := by
    unfold owns; iintro ⟨%f, %hf, H⟩; obtain rfl := h.eq_unread hf; iexact H
  have h₂ : (m.view.loc c ↦[m.view.set]{q} h.unread X : sProp 𝕄) ⊢ (owns c m q X : sProp 𝕄) := by
    unfold owns; iintro H; iexists _; isplitr; · ipureintro; exact h.read_unread _
    iexact H
  exact BI.equiv_iff.mp ⟨h₁, h₂⟩

/-- Stored pieces that tile a memref leave it owned at the value the pieces spell, whatever it held before. -/
theorem owns_canon [∀ e, Nonempty (Val e)] (c : Thread nD τ) {sp : Space} {sh : Shape} {e : EltTy} {m : Memref sig c.2.kind sp sh e} (q : PosShare TreeShare) (L : List (View.Piece Val sh e))
    (h : View.Piece.tiledL L sh.size = true) :
    (iprop(∃ f, m.view.loc c ↦[m.view.set]{q} m.view.writes Val f L) : sProp 𝕄) ⊢ owns c m q (View.canon L) := by
  iintro ⟨%f, H⟩; unfold owns; iexists m.view.writes Val f L; isplitr
  · ipureintro; exact View.read_writes_eq_canon _ _ _ (View.cover_of_tiledL L _ h)
  · iexact H

end Idealize.ShloMosaic

end
-- ==== Proof.BitsEdgePassShared.lean ====
import proofs.«110987_g5892695130345_cont_sun_m_578_16_alg».proof.Proof.Gen.Kernel.Launch
import proofs.«110987_g5892695130345_cont_sun_m_578_16_alg».proof.Proof.Gen.Kernel.Skeleton
import proofs.«110987_g5892695130345_cont_sun_m_578_16_alg».proof.Proof.Gen.Kernel.Points
import proofs.«110987_g5892695130345_cont_sun_m_578_16_alg».proof.Proof.LibOwns
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 31 :=
  (by decide +kernel : ∀ t : Fin grid0.N, cond0_1 (grid0.coords t) ↔ t.val = 31)

theorem liveAt0_in : ∀ w : Fin cfg0.W, w.val < 7 → ∀ t : Fin cfg0.N, cfg0.idle w (grid0.coords t) = false := by decide +kernel

theorem idleAt0_7 : ∀ t : Fin cfg0.N, ¬cond0_1 (grid0.coords t) → cfg0.idle 7 (grid0.coords t) = true := by decide +kernel

theorem noFlush0_7 : ∀ t : Fin cfg0.N, ¬cond0_1 (grid0.coords t) → (cfg0.win 7).flush t = false := by decide +kernel

theorem liveAt0_7 : ∀ t : Fin cfg0.N, cond0_1 (grid0.coords t) → cfg0.idle 7 (grid0.coords t) = false := by decide +kernel

abbrev ms0 (w : Fin cfg0.W) (t : Fin cfg0.N) := (cfg0.win w).stage (cfg0.slots t w)
abbrev hs0 (w : Fin cfg0.W) (t : Fin cfg0.N) : (ms0 w t).IsWhole := stage_whole0 w _

abbrev scM0_0 : Memref sig .tc .vmem S4096x65 .f32 := Memref.whole cc0_scratch0

structure Mems0 where
  a1 : Memref sig .tc .vmem S256x4096 .f32
  h1 : a1.IsWhole
  a2 : Memref sig .tc .vmem S256x64 .f32
  h2 : a2.IsWhole
  a3 : Memref sig .tc .vmem S4096x64 .f32
  h3 : a3.IsWhole
  a4 : Memref sig .tc .vmem S128x64 .f32
  h4 : a4.IsWhole
  a5 : Memref sig .tc .vmem S1x64 .f32
  h5 : a5.IsWhole
  a6 : Memref sig .tc .vmem S1x64 .f32
  h6 : a6.IsWhole
  a7 : Memref sig .tc .vmem S1x64 .f32
  h7 : a7.IsWhole
  a8 : Memref sig .tc .vmem S4096x65 .f32
  h8 : a8.IsWhole
  a9 : Memref sig .tc .vmem S4096x65 .f32
  h9 : a9.IsWhole

/-- The body on nine whole memrefs: seven inputs, the result window's buffer, the accumulator. -/
abbrev Mems0.body (M : Mems0) (i : grid0.Coords) :=
  cc0__p1_body (F := F) i M.a1 M.h1 M.a2 M.h2 M.a3 M.h3 M.a4 M.h4 M.a5 M.h5 M.a6 M.h6 M.a7 M.h7 M.a8 M.h8 M.a9 M.h9

/-- The memrefs the body is called with at panel `t`. -/
abbrev mems0 (t : Fin cfg0.N) : Mems0 :=
  ⟨ms0 0 t, hs0 0 t, ms0 1 t, hs0 1 t, ms0 2 t, hs0 2 t, ms0 3 t, hs0 3 t, ms0 4 t, hs0 4 t, ms0 5 t, hs0 5 t, ms0 6 t, hs0 6 t, ms0 7 t, hs0 7 t, scM0_0, Memref.isWhole_whole _⟩

/-- A scoped buffer held whole at some contents. -/
abbrev heldAny (c : Dev nD) (b : Ref sig .tc) : sProp 𝕄 :=
  iprop(∃ f : Buf (Elt F) ((c : Thread nD τ).loc b), ((c : Thread nD τ).loc b) ↦{fullShare} f)

def otherScoped (c : Dev nD) : sProp 𝕄 :=
  iprop(heldAny c cc1_stg0_0 ∗ heldAny c cc1_stg0_1 ∗ heldAny c cc1_stg1_0 ∗ heldAny c cc1_stg1_1 ∗ heldAny c cc1_stg2_0 ∗ heldAny c cc1_stg3_0 ∗ heldAny c cc1_stg4_0 ∗ heldAny c cc1_stg5_0 ∗ heldAny c cc1_stg6_0 ∗ heldAny c cc1_stg7_0 ∗ heldAny c cc1_stg8_0 ∗ heldAny c cc1_stg9_0 ∗ heldAny c cc1_stg10_0 ∗ heldAny c cc1_stg11_0 ∗ heldAny c cc1_stg12_0 ∗ heldAny c cc1_stg13_0 ∗ heldAny c cc1_scratch0)

theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA otherScoped; rw [scopedRest0_eq]; simp only [scM0_0, owns_whole]; try rfl

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Cert.Kernel.Hand

end
-- ==== Proof.BitsEdgePassRunFirst.lean ====
import proofs.«110987_g5892695130345_cont_sun_m_578_16_alg».proof.Proof.BitsEdgePassShared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_First (c : Dev nD) (i : grid0.Coords) (M : Mems0) (hc0 : cond0_0 i) (hc1 : ¬cond0_1 i)
    (x0 : Vec F S256x4096 .f32) (x1 : Vec F S256x64 .f32) :
    { LS0 : List (View.Piece (Elt F) S4096x65 .f32) //
      ∀ (E : Set ℕ) (K : PUnit → sProp 𝕄),
        iprop(owns (c : Thread nD τ) M.a1 fullShare x0 ∗ owns (c : Thread nD τ) M.a2 fullShare x1 ∗ (∃ d, owns (c : Thread nD τ) M.a9 fullShare d)
            ∗ (iprop(owns (c : Thread nD τ) M.a1 fullShare x0 ∗ owns (c : Thread nD τ) M.a2 fullShare x1 ∗ (∃ f, M.a9.view.loc (c : Thread nD τ) ↦[M.a9.view.set]{fullShare} M.a9.view.writes (Elt F) f LS0)) -∗ K ⟨⟩))
          ⊢ wp frame (wpE (defs₀ (F := F)) Variants.none c none) E (M.body i) K } := by
  obtain ⟨arg1, harg1, arg2, harg2, arg3, harg3, arg4, harg4, arg5, harg5, arg6, harg6, arg7, harg7, arg8, harg8, arg9, harg9⟩ := M
  refine ⟨?_, fun E K => ?run⟩
  case run =>
    simp only [Mems0.body, cc0__p1_body_eq_skeleton]; unfold cc0__p1_body_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.BitsEdgePassRunMid.lean ====
import proofs.«110987_g5892695130345_cont_sun_m_578_16_alg».proof.Proof.BitsEdgePassRunFirst

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_Mid (c : Dev nD) (i : grid0.Coords) (M : Mems0) (hc0 : ¬cond0_0 i) (hc1 : ¬cond0_1 i)
    (x0 : Vec F S256x4096 .f32) (x1 : Vec F S256x64 .f32) (xs0 : Vec F S4096x65 .f32) :
    { LS0 : List (View.Piece (Elt F) S4096x65 .f32) //
      ∀ (E : Set ℕ) (K : PUnit → sProp 𝕄),
        iprop(owns (c : Thread nD τ) M.a1 fullShare x0 ∗ owns (c : Thread nD τ) M.a2 fullShare x1 ∗ owns (c : Thread nD τ) M.a9 fullShare xs0
            ∗ (iprop(owns (c : Thread nD τ) M.a1 fullShare x0 ∗ owns (c : Thread nD τ) M.a2 fullShare x1 ∗ (∃ f, M.a9.view.loc (c : Thread nD τ) ↦[M.a9.view.set]{fullShare} M.a9.view.writes (Elt F) f LS0)) -∗ K ⟨⟩))
          ⊢ wp frame (wpE (defs₀ (F := F)) Variants.none c none) E (M.body i) K } := by
  obtain ⟨arg1, harg1, arg2, harg2, arg3, harg3, arg4, harg4, arg5, harg5, arg6, harg6, arg7, harg7, arg8, harg8, arg9, harg9⟩ := M
  refine ⟨?_, fun E K => ?run⟩
  case run =>
    simp only [Mems0.body, cc0__p1_body_eq_skeleton]; unfold cc0__p1_body_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.BitsEdgePassRunLast.lean ====
import proofs.«110987_g5892695130345_cont_sun_m_578_16_alg».proof.Proof.BitsEdgePassRunMid

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_Last (c : Dev nD) (i : grid0.Coords) (M : Mems0) (hc0 : ¬cond0_0 i) (hc1 : cond0_1 i)
    (x0 : Vec F S256x4096 .f32) (x1 : Vec F S256x64 .f32) (x2 : Vec F S4096x64 .f32) (x3 : Vec F S128x64 .f32) (x4 : Vec F S1x64 .f32) (x5 : Vec F S1x64 .f32) (x6 : Vec F S1x64 .f32) (xs0 : Vec F S4096x65 .f32) :
    Σ' (L7 : List (View.Piece (Elt F) S4096x65 .f32)), { LS0 : List (View.Piece (Elt F) S4096x65 .f32) //
      ∀ (E : Set ℕ) (K : PUnit → sProp 𝕄),
        iprop(owns (c : Thread nD τ) M.a1 fullShare x0 ∗ owns (c : Thread nD τ) M.a2 fullShare x1 ∗ owns (c : Thread nD τ) M.a3 fullShare x2 ∗ owns (c : Thread nD τ) M.a4 fullShare x3 ∗ owns (c : Thread nD τ) M.a5 fullShare x4 ∗ owns (c : Thread nD τ) M.a6 fullShare x5 ∗ owns (c : Thread nD τ) M.a7 fullShare x6 ∗ (∃ d, owns (c : Thread nD τ) M.a8 fullShare d) ∗ owns (c : Thread nD τ) M.a9 fullShare xs0
            ∗ (iprop(owns (c : Thread nD τ) M.a1 fullShare x0 ∗ owns (c : Thread nD τ) M.a2 fullShare x1 ∗ owns (c : Thread nD τ) M.a3 fullShare x2 ∗ owns (c : Thread nD τ) M.a4 fullShare x3 ∗ owns (c : Thread nD τ) M.a5 fullShare x4 ∗ owns (c : Thread nD τ) M.a6 fullShare x5 ∗ owns (c : Thread nD τ) M.a7 fullShare x6 ∗ (∃ f, M.a8.view.loc (c : Thread nD τ) ↦[M.a8.view.set]{fullShare} M.a8.view.writes (Elt F) f L7) ∗ (∃ f, M.a9.view.loc (c : Thread nD τ) ↦[M.a9.view.set]{fullShare} M.a9.view.writes (Elt F) f LS0)) -∗ K ⟨⟩))
          ⊢ wp frame (wpE (defs₀ (F := F)) Variants.none c none) E (M.body i) K } := by
  obtain ⟨arg1, harg1, arg2, harg2, arg3, harg3, arg4, harg4, arg5, harg5, arg6, harg6, arg7, harg7, arg8, harg8, arg9, harg9⟩ := M
  refine ⟨?_, ?_, fun E K => ?run⟩
  case run =>
    simp only [Mems0.body, cc0__p1_body_eq_skeleton]; unfold cc0__p1_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.Kernel.Hand

end
-- ==== Proof.BitsEdgePassData.lean ====
import proofs.«110987_g5892695130345_cont_sun_m_578_16_alg».proof.Proof.BitsEdgePassRunLast

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Panel

variable (c : Dev nD) (t : Fin cfg0.N)

theorem is0 (h : t.val = 0) : cond0_0 (grid0.coords t) := (hcond0_0 t).mpr h
theorem not0 (h : ¬t.val = 0) : ¬cond0_0 (grid0.coords t) := fun h' => h ((hcond0_0 t).mp h')
theorem is31 (h : t.val = 31) : cond0_1 (grid0.coords t) := (hcond0_1 t).mpr h
theorem not31 (h : ¬t.val = 31) : ¬cond0_1 (grid0.coords t) := fun h' => h ((hcond0_1 t).mp h')

/-- The body's run in each of its three control cases, at panel `t`. -/
abbrev runF (h0 : t.val = 0) (h1 : ¬t.val = 31) :=
  kernelRun0_First c (grid0.coords t) (mems0 t) (is0 t h0) (not31 t h1) (iblk0 V c 0 t) (iblk0 V c 1 t)
abbrev runM (h0 : ¬t.val = 0) (h1 : ¬t.val = 31) (xs0 : Vec F S4096x65 .f32) :=
  kernelRun0_Mid c (grid0.coords t) (mems0 t) (not0 t h0) (not31 t h1) (iblk0 V c 0 t) (iblk0 V c 1 t) xs0
abbrev runL (h0 : ¬t.val = 0) (h1 : t.val = 31) (xs0 : Vec F S4096x65 .f32) :=
  kernelRun0_Last c (grid0.coords t) (mems0 t) (not0 t h0) (is31 t h1) (iblk0 V c 0 t) (iblk0 V c 1 t) (iblk0 V c 2 t) (iblk0 V c 3 t) (iblk0 V c 4 t) (iblk0 V c 5 t) (iblk0 V c 6 t) xs0

end Panel

/-- The accumulator after panel `n`: what the panel's run stored, over what the panel before left. -/
def accAt0 (c : Dev nD) : (n : ℕ) → n < cfg0.N → Vec F S4096x65 .f32
  | 0, hn => View.canon (runF V c ⟨0, hn⟩ rfl (show ¬(0 : ℕ) = 31 by decide)).1
  | n + 1, hn =>
    if h1 : n + 1 = 31 then View.canon (runL V c ⟨n + 1, hn⟩ (Nat.succ_ne_zero n) h1 (accAt0 c n (Nat.lt_of_succ_lt hn))).2.1
    else View.canon (runM V c ⟨n + 1, hn⟩ (Nat.succ_ne_zero n) h1 (accAt0 c n (Nat.lt_of_succ_lt hn))).1

/-- The accumulator the panel before `t` left. -/
abbrev accBefore0 (c : Dev nD) (t : Fin cfg0.N) : Vec F S4096x65 .f32 :=
  accAt0 V c (t.val - 1) (Nat.lt_of_le_of_lt (Nat.sub_le _ _) t.isLt)

theorem accAt0_F (c : Dev nD) (t : Fin cfg0.N) (h0 : t.val = 0) (h1 : ¬t.val = 31) :
    accAt0 V c t.val t.isLt = View.canon (runF V c t h0 h1).1 := by
  obtain ⟨n, hn⟩ := t
  cases n with
  | zero => rfl
  | succ n => exact absurd h0 (Nat.succ_ne_zero n)

theorem accAt0_M (c : Dev nD) (t : Fin cfg0.N) (h0 : ¬t.val = 0) (h1 : ¬t.val = 31) :
    accAt0 V c t.val t.isLt = View.canon (runM V c t h0 h1 (accBefore0 V c t)).1 := by
  obtain ⟨n, hn⟩ := t
  cases n with
  | zero => exact absurd rfl h0
  | succ n => exact (dif_neg h1).trans rfl

theorem accAt0_L (c : Dev nD) (t : Fin cfg0.N) (h0 : ¬t.val = 0) (h1 : t.val = 31) :
    accAt0 V c t.val t.isLt = View.canon (runL V c t h0 h1 (accBefore0 V c t)).2.1 := by
  obtain ⟨n, hn⟩ := t
  cases n with
  | zero => exact absurd rfl h0
  | succ n => exact (dif_pos h1).trans rfl

/-- What panel 31 stores as the pass's result; at an earlier panel nothing is stored. -/
def resAt0 (c : Dev nD) (t : Fin cfg0.N) : Vec F S4096x65 .f32 :=
  if h1 : t.val = 31 then View.canon (runL V c t (by omega) h1 (accBefore0 V c t)).1
  else View.canon []

theorem resAt0_L (c : Dev nD) (t : Fin cfg0.N) (h0 : ¬t.val = 0) (h1 : t.val = 31) :
    resAt0 V c t = View.canon (runL V c t h0 h1 (accBefore0 V c t)).1 := dif_pos h1

/-- The invariant before panel `n`: from panel 1 on the accumulator holds what panel `n - 1` left. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt0 V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt0 V c (n - 1) (by omega)) ∗ otherScoped (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => resAt0 V c t
  Φ t := PhiS V c t.val (Nat.le_of_lt_succ t.isLt)
  q _ := fullShare
  owed _ := 0

theorem A_eq0 (c : Dev nD) (w : Fin cfg0.W) : (dat0 V c).A w = V c (Pipeline.arrRef spec0 w) := rfl
theorem q0 (c : Dev nD) (w : Fin cfg0.W) : (dat0 V c).q w = fullShare := rfl
theorem owed0 (c : Dev nD) (t : Fin (cfg0.N + 1)) : (dat0 V c).owed t = 0 := rfl
theorem recorded0 (c : Dev nD) (t : Fin (cfg0.N + 1)) : (dat0 V c).recorded t = Set.univ := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = iblk0 V c 4 t := rfl
theorem after0_5 (c : Dev nD) (t : Fin cfg0.N) : (dat0 V c).after 5 t = iblk0 V c 5 t := rfl
theorem after0_6 (c : Dev nD) (t : Fin cfg0.N) : (dat0 V c).after 6 t = iblk0 V c 6 t := rfl
theorem after0_7 (c : Dev nD) (t : Fin cfg0.N) : (dat0 V c).after 7 t = resAt0 V c t := rfl

theorem before0_in (c : Dev nD) (w : Fin cfg0.W) (hw : w.val < 7) (t : Fin cfg0.N) (d) :
    (dat0 V c).before w t d = (dat0 V c).after w t := by
  fin_cases w <;> first
    | exact absurd hw (by decide)
    | exact ((dat0 V c).before_in_eq_fetched _ rfl (fun _ => rfl) (fun _ _ _ => rfl) (fun _ => rfl) t d).trans rfl

theorem leaves0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

def bodyPre0 (c : Dev nD) (t : Fin cfg0.N) : sProp 𝕄 :=
  iprop((dat0 V c).Φ t.castSucc ∗ (dat0 V c).owesAt () t.castSucc
    ∗ (∃ d, owns (c : Thread nD τ) (ms0 0 t) fullShare ((dat0 V c).before 0 t d))
    ∗ (∃ d, owns (c : Thread nD τ) (ms0 1 t) fullShare ((dat0 V c).before 1 t d))
    ∗ (∃ d, owns (c : Thread nD τ) (ms0 2 t) fullShare ((dat0 V c).before 2 t d))
    ∗ (∃ d, owns (c : Thread nD τ) (ms0 3 t) fullShare ((dat0 V c).before 3 t d))
    ∗ (∃ d, owns (c : Thread nD τ) (ms0 4 t) fullShare ((dat0 V c).before 4 t d))
    ∗ (∃ d, owns (c : Thread nD τ) (ms0 5 t) fullShare ((dat0 V c).before 5 t d))
    ∗ (∃ d, owns (c : Thread nD τ) (ms0 6 t) fullShare ((dat0 V c).before 6 t d))
    ∗ (∃ d, owns (c : Thread nD τ) (ms0 7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any panel: the panel index selects the run; the invariant hands it the accumulator the panel before left and takes it back at this panel's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c 0 (by decide) t, before0_in V c 1 (by decide) t, before0_in V c 2 (by decide) t, before0_in V c 3 (by decide) t, before0_in V c 4 (by decide) t, before0_in V c 5 (by decide) t, before0_in V c 6 (by decide) t]
  rw [show (dat0 V c).owesAt () t.succ = (dat0 V c).owesAt () t.castSucc from rfl]
  rw [show (dat0 V c).Φ t.succ = PhiS V c (t.val + 1) t.isLt from rfl, PhiS_succ, show (dat0 V c).Φ t.castSucc = PhiS V c t.val (Nat.le_of_lt t.isLt) from rfl]
  rw [leaves0 V c 0 t (liveAt0_in 0 (by decide) t), leaves0 V c 1 t (liveAt0_in 1 (by decide) t), leaves0 V c 2 t (liveAt0_in 2 (by decide) t), leaves0 V c 3 t (liveAt0_in 3 (by decide) t),
    leaves0 V c 4 t (liveAt0_in 4 (by decide) t), leaves0 V c 5 t (liveAt0_in 5 (by decide) t), leaves0 V c 6 t (liveAt0_in 6 (by decide) t)]
  simp only [after0_0, after0_1, after0_2, after0_3, after0_4, after0_5, after0_6]
  by_cases h0 : t.val = 0
  · have h1 : ¬t.val = 31 := by omega
    rw [Dat.leavesExact_idle (dat0 V c) 7 t (idleAt0_7 t (not31 t h1)) (noFlush0_7 t (not31 t h1))]
    rw [accAt0_F V c t h0 h1, PhiS_zero V c _ _ h0, PhiA0_eq]
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, H7⟩
    iapply ((runF V c t h0 h1).2 Set.univ _)
    iframe H0 H1 HS0
    iintro ⟨H0, H1, HS0⟩
    iframe Hoth Hg Ho H0 H1 H2 H3 H4 H5 H6 H7
    iapply owns_canon _ fullShare _ (by sl_kernel_rfl); iexact HS0
  · rw [PhiS_pos V c _ _ h0]
    by_cases h1 : t.val = 31
    · rw [leaves0 V c 7 t (liveAt0_7 t (is31 t h1)), after0_7, accAt0_L V c t h0 h1, resAt0_L V c t h0 h1]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runL V c t h0 h1 _).2.2 Set.univ _)
      iframe H0 H1 H2 H3 H4 H5 H6 HS0
      isplitl [H7]; · iexists _; iexact H7
      iintro ⟨H0, H1, H2, H3, H4, H5, H6, H7, HS0⟩
      iframe Hoth Hg Ho H0 H1 H2 H3 H4 H5 H6
      isplitl [HS0]
      · iapply owns_canon _ fullShare _ (by sl_kernel_rfl); iexact HS0
      iapply owns_canon _ fullShare _ (by sl_kernel_rfl); iexact H7
    · rw [Dat.leavesExact_idle (dat0 V c) 7 t (idleAt0_7 t (not31 t h1)) (noFlush0_7 t (not31 t h1))]
      rw [accAt0_M V c t h0 h1]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, H7⟩
      iapply ((runM V c t h0 h1 _).2 Set.univ _)
      iframe H0 H1 HS0
      iintro ⟨H0, H1, HS0⟩
      iframe Hoth Hg Ho H0 H1 H2 H3 H4 H5 H6 H7
      iapply owns_canon _ fullShare _ (by sl_kernel_rfl); iexact HS0

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

/-- After the last panel the accumulator's value is forgotten. -/
theorem hout0 (c : Dev nD) : (dat0 V c).Φ (Fin.last cfg0.N) ⊢ (Pipeline.ΦA spec0 c : sProp 𝕄) := by
  rw [show (dat0 V c).Φ (Fin.last cfg0.N) = PhiS V c cfg0.N (Nat.le_refl _) from rfl,
    PhiS_pos V c _ _ (by rw [show cfg0.N = 32 from N_0]; decide), PhiA0_eq]
  iintro ⟨⟨HS0, Hoth⟩, Hg⟩
  isplitl [HS0 Hoth]
  · isplitl [HS0]
    · iexists _; iexact HS0
    iexact Hoth
  iexact Hg

end Cert.Kernel.Hand

end
-- ==== Proof.BitsNodePassShared.lean ====
import proofs.«110987_g5892695130345_cont_sun_m_578_16_alg».proof.Proof.Gen.Kernel.Launch
import proofs.«110987_g5892695130345_cont_sun_m_578_16_alg».proof.Proof.Gen.Kernel.Skeleton
import proofs.«110987_g5892695130345_cont_sun_m_578_16_alg».proof.Proof.Gen.Kernel.Points
import proofs.«110987_g5892695130345_cont_sun_m_578_16_alg».proof.Proof.LibOwns
import Idealize.ShloMosaic.Lib.Pipeline.FrameBody
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
abbrev cond1_1 (i : grid1.Coords) : Prop := k1_cond2 i = 1#1
theorem hcond1_1 : ∀ t : Fin cfg1.N, cond1_1 (grid1.coords t) ↔ t.val = 31 :=
  (by decide +kernel : ∀ t : Fin grid1.N, cond1_1 (grid1.coords t) ↔ t.val = 31)

theorem liveAt1_in : ∀ (w : Fin cfg1.W), w.val < 13 → ∀ t : Fin cfg1.N, cfg1.idle w (grid1.coords t) = false := by decide +kernel
theorem idleAt1_13 : ∀ t : Fin cfg1.N, ¬t.val = 31 → cfg1.idle 13 (grid1.coords t) = true ∧ (cfg1.win 13).flush t = false := by decide +kernel
theorem liveAt1_13 : ∀ t : Fin cfg1.N, t.val = 31 → cfg1.idle 13 (grid1.coords t) = false := by decide +kernel

abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)
abbrev ms1_4 (t : Fin cfg1.N) := win1_4.stage (cfg1.slots t 4)
abbrev ms1_5 (t : Fin cfg1.N) := win1_5.stage (cfg1.slots t 5)
abbrev ms1_6 (t : Fin cfg1.N) := win1_6.stage (cfg1.slots t 6)
abbrev ms1_7 (t : Fin cfg1.N) := win1_7.stage (cfg1.slots t 7)
abbrev ms1_8 (t : Fin cfg1.N) := win1_8.stage (cfg1.slots t 8)
abbrev ms1_9 (t : Fin cfg1.N) := win1_9.stage (cfg1.slots t 9)
abbrev ms1_10 (t : Fin cfg1.N) := win1_10.stage (cfg1.slots t 10)
abbrev ms1_11 (t : Fin cfg1.N) := win1_11.stage (cfg1.slots t 11)
abbrev ms1_12 (t : Fin cfg1.N) := win1_12.stage (cfg1.slots t 12)
abbrev ms1_13 (t : Fin cfg1.N) := win1_13.stage (cfg1.slots t 13)
abbrev scM1_0 : Memref sig .tc .vmem S4096x65 .f32 := Memref.whole cc1_scratch0

-- The region invariant with the accumulator's part P singled out.
abbrev PhiAcc1 (c : Dev nD) (P : sProp 𝕄) : sProp 𝕄 :=
  iprop((P ∗ Pipeline.scopedRestBut (Ix := Unit) (Name := ℕ) (U := UR sig nD τ) (Lvl := ℕ) (Val := Elt F) spec1 c [cc1_scratch0]) ∗ ∃ r, prngReg c r)

theorem PhiA1_eq (c : Dev nD) : (Pipeline.ΦA spec1 c : sProp 𝕄) = PhiAcc1 c iprop(∃ d, owns (c : Thread nD τ) scM1_0 fullShare d) := by
  unfold Pipeline.ΦA
  rw [Pipeline.scopedRest_split_of_list spec1 c [cc1_scratch0] (by decide) (by decide)]
  simp only [scM1_0, owns_whole]
  rfl

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The thirteen input blocks of panel t, each owned through its memref.
def ins1 (c : Dev nD) (t : Fin cfg1.N) : sProp 𝕄 :=
  iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (iblk1 V c 3 t) ∗ owns (c : Thread nD τ) (ms1_4 t) fullShare (iblk1 V c 4 t) ∗ owns (c : Thread nD τ) (ms1_5 t) fullShare (iblk1 V c 5 t) ∗ owns (c : Thread nD τ) (ms1_6 t) fullShare (iblk1 V c 6 t) ∗ owns (c : Thread nD τ) (ms1_7 t) fullShare (iblk1 V c 7 t) ∗ owns (c : Thread nD τ) (ms1_8 t) fullShare (iblk1 V c 8 t) ∗ owns (c : Thread nD τ) (ms1_9 t) fullShare (iblk1 V c 9 t) ∗ owns (c : Thread nD τ) (ms1_10 t) fullShare (iblk1 V c 10 t) ∗ owns (c : Thread nD τ) (ms1_11 t) fullShare (iblk1 V c 11 t) ∗ owns (c : Thread nD τ) (ms1_12 t) fullShare (iblk1 V c 12 t))

end Cert.Kernel.Hand

end
-- ==== Proof.BitsNodePassRunFirst.lean ====
import proofs.«110987_g5892695130345_cont_sun_m_578_16_alg».proof.Proof.BitsNodePassShared

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
-- The body at the first point: the accumulator, found at anything, ends with the pieces LS0 written.
def nodeRunFirst (c : Dev nD) (t : Fin cfg1.N) (h0 : t.val = 0) (h1 : ¬t.val = 31) :
    { LS0 : List (View.Piece (Elt F) S4096x65 .f32) //
      ∀ (E : Set ℕ) (K : PUnit → sProp 𝕄),
        iprop(ins1 V c t ∗ (∃ d, owns (c : Thread nD τ) scM1_0 fullShare d)
            ∗ (iprop(ins1 V c t ∗ (∃ f, scM1_0.view.loc (c : Thread nD τ) ↦[scM1_0.view.set]{fullShare} scM1_0.view.writes (Elt F) f LS0)) -∗ K ⟨⟩))
          ⊢ wp frame (wpE (defs₀ (F := F)) Variants.none c none) E (bodyAt1 t) K } := by
  have hc0 : cond1_0 (grid1.coords t) := (hcond1_0 t).mpr h0
  have hc1 : ¬cond1_1 (grid1.coords t) := fun h => h1 ((hcond1_1 t).mp h)
  refine ⟨?_, fun E K => ?run⟩
  case run =>
    unfold ins1 bodyAt1
    simp only [cc1__p2_body_eq_skeleton]; unfold cc1__p2_body_skel
    simp only [k1_part1_eq_skeleton, k1_part2_eq_skeleton]
    rw [owns_unread _ (hstage1_0 _), owns_unread _ (hstage1_1 _), owns_unread _ (hstage1_2 _), owns_unread _ (hstage1_3 _), owns_unread _ (hstage1_4 _), owns_unread _ (hstage1_5 _), owns_unread _ (hstage1_6 _), owns_unread _ (hstage1_7 _), owns_unread _ (hstage1_8 _), owns_unread _ (hstage1_9 _), owns_unread _ (hstage1_10 _), owns_unread _ (hstage1_11 _), owns_unread _ (hstage1_12 _)]
    unfold owns
    iintro ⟨⟨H0, H1, H2, H3, H4, H5, H6, H7, H8, H9, H10, H11, H12⟩, ⟨%ds0, %fs0, -, HS0⟩, Hk⟩
    sl_exec (disch := first | exact hc0 | exact hc1)
    sl_step
    iapply Hk
    iframe
    iexists _; iexact HS0

end Cert.Kernel.Hand

end
-- ==== Proof.BitsNodePassRunMid.lean ====
import proofs.«110987_g5892695130345_cont_sun_m_578_16_alg».proof.Proof.BitsNodePassRunFirst

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
-- The body at a middle point: the accumulator, found at xs0, ends with the pieces LS0 written.
def nodeRunMid (c : Dev nD) (t : Fin cfg1.N) (h0 : ¬t.val = 0) (h1 : ¬t.val = 31) (xs0 : Vec F S4096x65 .f32) :
    { LS0 : List (View.Piece (Elt F) S4096x65 .f32) //
      ∀ (E : Set ℕ) (K : PUnit → sProp 𝕄),
        iprop(ins1 V c t ∗ owns (c : Thread nD τ) scM1_0 fullShare xs0
            ∗ (iprop(ins1 V c t ∗ (∃ f, scM1_0.view.loc (c : Thread nD τ) ↦[scM1_0.view.set]{fullShare} scM1_0.view.writes (Elt F) f LS0)) -∗ K ⟨⟩))
          ⊢ wp frame (wpE (defs₀ (F := F)) Variants.none c none) E (bodyAt1 t) K } := by
  have hc0 : ¬cond1_0 (grid1.coords t) := fun h => h0 ((hcond1_0 t).mp h)
  have hc1 : ¬cond1_1 (grid1.coords t) := fun h => h1 ((hcond1_1 t).mp h)
  refine ⟨?_, fun E K => ?run⟩
  case run =>
    unfold ins1 bodyAt1
    simp only [cc1__p2_body_eq_skeleton]; unfold cc1__p2_body_skel
    simp only [k1_part1_eq_skeleton, k1_part2_eq_skeleton]
    rw [owns_unread _ (hstage1_0 _), owns_unread _ (hstage1_1 _), owns_unread _ (hstage1_2 _), owns_unread _ (hstage1_3 _), owns_unread _ (hstage1_4 _), owns_unread _ (hstage1_5 _), owns_unread _ (hstage1_6 _), owns_unread _ (hstage1_7 _), owns_unread _ (hstage1_8 _), owns_unread _ (hstage1_9 _), owns_unread _ (hstage1_10 _), owns_unread _ (hstage1_11 _), owns_unread _ (hstage1_12 _)]
    unfold owns
    iintro ⟨⟨H0, H1, H2, H3, H4, H5, H6, H7, H8, H9, H10, H11, H12⟩, ⟨%fs0, %hfs0, HS0⟩, Hk⟩
    obtain rfl := (Memref.isWhole_whole cc1_scratch0).eq_unread hfs0
    sl_exec (disch := first | exact hc0 | exact hc1)
    sl_step
    iapply Hk
    iframe
    iexists _; iexact HS0

end Cert.Kernel.Hand

end
-- ==== Proof.BitsNodePassRunLast.lean ====
import proofs.«110987_g5892695130345_cont_sun_m_578_16_alg».proof.Proof.BitsNodePassRunMid

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
-- The body at the last point: the accumulator, found at xs0, and the result window, found at anything, end with the pieces LS0 and L13 written.
def nodeRunLast (c : Dev nD) (t : Fin cfg1.N) (h0 : ¬t.val = 0) (h1 : t.val = 31) (xs0 : Vec F S4096x65 .f32) :
    Σ' (L13 : List (View.Piece (Elt F) S4096x1 .f32)), { LS0 : List (View.Piece (Elt F) S4096x65 .f32) //
      ∀ (E : Set ℕ) (K : PUnit → sProp 𝕄),
        iprop(ins1 V c t ∗ (∃ d, owns (c : Thread nD τ) (ms1_13 t) fullShare d) ∗ owns (c : Thread nD τ) scM1_0 fullShare xs0
            ∗ (iprop(ins1 V c t ∗ (∃ f, (ms1_13 t).view.loc (c : Thread nD τ) ↦[(ms1_13 t).view.set]{fullShare} (ms1_13 t).view.writes (Elt F) f L13) ∗ (∃ f, scM1_0.view.loc (c : Thread nD τ) ↦[scM1_0.view.set]{fullShare} scM1_0.view.writes (Elt F) f LS0)) -∗ K ⟨⟩))
          ⊢ wp frame (wpE (defs₀ (F := F)) Variants.none c none) E (bodyAt1 t) K } := by
  have hc0 : ¬cond1_0 (grid1.coords t) := fun h => h0 ((hcond1_0 t).mp h)
  have hc1 : cond1_1 (grid1.coords t) := (hcond1_1 t).mpr h1
  refine ⟨?_, ?_, fun E K => ?run⟩
  case run =>
    unfold ins1 bodyAt1
    simp only [cc1__p2_body_eq_skeleton]; unfold cc1__p2_body_skel
    simp only [k1_part1_eq_skeleton, k1_part2_eq_skeleton]
    rw [owns_unread _ (hstage1_0 _), owns_unread _ (hstage1_1 _), owns_unread _ (hstage1_2 _), owns_unread _ (hstage1_3 _), owns_unread _ (hstage1_4 _), owns_unread _ (hstage1_5 _), owns_unread _ (hstage1_6 _), owns_unread _ (hstage1_7 _), owns_unread _ (hstage1_8 _), owns_unread _ (hstage1_9 _), owns_unread _ (hstage1_10 _), owns_unread _ (hstage1_11 _), owns_unread _ (hstage1_12 _)]
    unfold owns
    iintro ⟨⟨H0, H1, H2, H3, H4, H5, H6, H7, H8, H9, H10, H11, H12⟩, ⟨%d13, %f13, -, H13⟩, ⟨%fs0, %hfs0, HS0⟩, Hk⟩
    obtain rfl := (Memref.isWhole_whole cc1_scratch0).eq_unread hfs0
    sl_exec (disch := first | exact hc0 | exact hc1)
    sl_step
    iapply Hk
    iframe
    isplitl [H13]
    · iexists _; iexact H13
    iexists _; iexact HS0

end Cert.Kernel.Hand

end
-- ==== Proof.BitsNodePassFrame.lean ====
import proofs.«110987_g5892695130345_cont_sun_m_578_16_alg».proof.Proof.BitsNodePassRunLast

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The accumulator after panel n: the read-back of what the panel's run stored, over what the panel before left.
def accAt1 (c : Dev nD) : (n : ℕ) → n < cfg1.N → Vec F S4096x65 .f32
  | 0, hn => View.canon (nodeRunFirst V c ⟨0, hn⟩ rfl (show ¬(0 : ℕ) = 31 by decide)).1
  | n + 1, hn =>
    if h1 : n + 1 = 31 then View.canon (nodeRunLast V c ⟨n + 1, hn⟩ (Nat.succ_ne_zero n) h1 (accAt1 c n (Nat.lt_of_succ_lt hn))).2.1
    else View.canon (nodeRunMid V c ⟨n + 1, hn⟩ (Nat.succ_ne_zero n) h1 (accAt1 c n (Nat.lt_of_succ_lt hn))).1

abbrev accBefore1 (c : Dev nD) (t : Fin cfg1.N) : Vec F S4096x65 .f32 :=
  accAt1 V c (t.val - 1) (Nat.lt_of_le_of_lt (Nat.sub_le _ _) t.isLt)

section Panel

variable (c : Dev nD) (t : Fin cfg1.N)

theorem accAt1_F (h0 : t.val = 0) (h1 : ¬t.val = 31) : accAt1 V c t.val t.isLt = View.canon (nodeRunFirst V c t h0 h1).1 := by
  obtain ⟨n, hn⟩ := t
  cases n with
  | zero => rfl
  | succ n => exact absurd h0 (Nat.succ_ne_zero n)

theorem accAt1_M (h0 : ¬t.val = 0) (h1 : ¬t.val = 31) : accAt1 V c t.val t.isLt = View.canon (nodeRunMid V c t h0 h1 (accBefore1 V c t)).1 := by
  obtain ⟨n, hn⟩ := t
  cases n with
  | zero => exact absurd rfl h0
  | succ n => exact (dif_neg h1).trans rfl

theorem accAt1_L (h0 : ¬t.val = 0) (h1 : t.val = 31) : accAt1 V c t.val t.isLt = View.canon (nodeRunLast V c t h0 h1 (accBefore1 V c t)).2.1 := by
  obtain ⟨n, hn⟩ := t
  cases n with
  | zero => exact absurd rfl h0
  | succ n => exact (dif_pos h1).trans rfl

-- The result block after panel t: what the last panel stored.
def resAt1 : Vec F S4096x1 .f32 :=
  if h1 : t.val = 31 then View.canon (nodeRunLast V c t (by omega) h1 (accBefore1 V c t)).1 else View.canon []

theorem resAt1_L (h0 : ¬t.val = 0) (h1 : t.val = 31) : resAt1 V c t = View.canon (nodeRunLast V c t h0 h1 (accBefore1 V c t)).1 := dif_pos h1

end Panel

-- The invariant before panel n: the accumulator at what the panel before left, at anything before the first.
def PhiS1 (c : Dev nD) : (n : ℕ) → n ≤ cfg1.N → sProp 𝕄
  | 0, _ => Pipeline.ΦA spec1 c
  | n + 1, hn => PhiAcc1 c (owns (c : Thread nD τ) scM1_0 fullShare (accAt1 V c n hn))

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = PhiAcc1 c (owns (c : Thread nD τ) scM1_0 fullShare (accAt1 V c (n - 1) (by omega))) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => resAt1 V c t
  Φ t := PhiS1 V c t.val (Nat.le_of_lt_succ t.isLt)
  q _ := fullShare
  owed _ := 0

section Panel

variable (c : Dev nD)

theorem A_eq1 (w : Fin cfg1.W) : (dat1 V c).A w = V c (Pipeline.arrRef spec1 w) := rfl
theorem q1 (w : Fin cfg1.W) : (dat1 V c).q w = fullShare := rfl
theorem owed1 (t : Fin (cfg1.N + 1)) : (dat1 V c).owed t = 0 := rfl
theorem recorded1 (t : Fin (cfg1.N + 1)) : (dat1 V c).recorded t = Set.univ := rfl

variable (t : Fin cfg1.N)

theorem after1_0 : (dat1 V c).after 0 t = iblk1 V c 0 t := rfl
theorem after1_1 : (dat1 V c).after 1 t = iblk1 V c 1 t := rfl
theorem after1_2 : (dat1 V c).after 2 t = iblk1 V c 2 t := rfl
theorem after1_3 : (dat1 V c).after 3 t = iblk1 V c 3 t := rfl
theorem after1_4 : (dat1 V c).after 4 t = iblk1 V c 4 t := rfl
theorem after1_5 : (dat1 V c).after 5 t = iblk1 V c 5 t := rfl
theorem after1_6 : (dat1 V c).after 6 t = iblk1 V c 6 t := rfl
theorem after1_7 : (dat1 V c).after 7 t = iblk1 V c 7 t := rfl
theorem after1_8 : (dat1 V c).after 8 t = iblk1 V c 8 t := rfl
theorem after1_9 : (dat1 V c).after 9 t = iblk1 V c 9 t := rfl
theorem after1_10 : (dat1 V c).after 10 t = iblk1 V c 10 t := rfl
theorem after1_11 : (dat1 V c).after 11 t = iblk1 V c 11 t := rfl
theorem after1_12 : (dat1 V c).after 12 t = iblk1 V c 12 t := rfl
theorem after1_13 : (dat1 V c).after 13 t = resAt1 V c t := rfl

theorem before1_in (w : Fin cfg1.W) (hw : w.val < 13) (d) : (dat1 V c).before w t d = (dat1 V c).after w t := by
  fin_cases w <;> first
    | exact absurd hw (by decide)
    | exact ((dat1 V c).before_in_eq_fetched _ rfl (fun _ => rfl) (fun _ _ _ => rfl) (fun _ => rfl) t d).trans rfl

theorem leaves1 (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t)

set_option maxHeartbeats 4800000 in
-- The body at any panel: the panel index selects the run; the invariant hands it the accumulator the panel before left and takes it back at this panel's.
theorem sound_body1 : bodyPre1 V c t ⊢ wp frame (wpE (defs₀ (F := F)) Variants.none c none) Set.univ (bodyAt1 t) (fun _ => bodyPost1 V c t) := by
  unfold bodyPre1 bodyPost1
  simp only [before1_in V c t 0 (by decide), before1_in V c t 1 (by decide), before1_in V c t 2 (by decide), before1_in V c t 3 (by decide), before1_in V c t 4 (by decide), before1_in V c t 5 (by decide), before1_in V c t 6 (by decide), before1_in V c t 7 (by decide), before1_in V c t 8 (by decide), before1_in V c t 9 (by decide), before1_in V c t 10 (by decide), before1_in V c t 11 (by decide), before1_in V c t 12 (by decide)]
  rw [leaves1 V c t 0 (liveAt1_in 0 (by decide) t), leaves1 V c t 1 (liveAt1_in 1 (by decide) t), leaves1 V c t 2 (liveAt1_in 2 (by decide) t), leaves1 V c t 3 (liveAt1_in 3 (by decide) t), leaves1 V c t 4 (liveAt1_in 4 (by decide) t), leaves1 V c t 5 (liveAt1_in 5 (by decide) t), leaves1 V c t 6 (liveAt1_in 6 (by decide) t), leaves1 V c t 7 (liveAt1_in 7 (by decide) t), leaves1 V c t 8 (liveAt1_in 8 (by decide) t), leaves1 V c t 9 (liveAt1_in 9 (by decide) t), leaves1 V c t 10 (liveAt1_in 10 (by decide) t), leaves1 V c t 11 (liveAt1_in 11 (by decide) t), leaves1 V c t 12 (liveAt1_in 12 (by decide) t)]
  simp only [after1_0, after1_1, after1_2, after1_3, after1_4, after1_5, after1_6, after1_7, after1_8, after1_9, after1_10, after1_11, after1_12]
  rw [show (dat1 V c).owesAt () t.succ = (dat1 V c).owesAt () t.castSucc from rfl,
    show (dat1 V c).Φ t.succ = PhiAcc1 c (owns (c : Thread nD τ) scM1_0 fullShare (accAt1 V c t.val t.isLt)) from rfl,
    show (dat1 V c).Φ t.castSucc = PhiS1 V c t.val (Nat.le_of_lt t.isLt) from rfl]
  by_cases h0 : t.val = 0
  · have h1 : ¬t.val = 31 := by omega
    rw [Dat.leavesExact_idle _ 13 t (idleAt1_13 t h1).1 (idleAt1_13 t h1).2, accAt1_F V c t h0 h1, PhiS1_zero V c _ _ h0, PhiA1_eq]
    iintro ⟨⟨⟨HS0, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
    iapply ((nodeRunFirst V c t h0 h1).2 Set.univ _)
    unfold ins1
    iframe H0 H1 H2 H3 H4 H5 H6 H7 H8 H9 H10 H11 H12 HS0
    iintro ⟨⟨H0, H1, H2, H3, H4, H5, H6, H7, H8, H9, H10, H11, H12⟩, HS0⟩
    ihave HS0 := (owns_canon (c : Thread nD τ) fullShare (nodeRunFirst V c t h0 h1).1 (by sl_kernel_rfl)) $$ HS0
    unfold PhiAcc1; iframe
  · rw [PhiS1_pos V c _ _ h0]
    by_cases h1 : t.val = 31
    · rw [leaves1 V c t 13 (liveAt1_13 t h1), after1_13, resAt1_L V c t h0 h1, accAt1_L V c t h0 h1]
      iintro ⟨⟨⟨HS0, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
      iapply ((nodeRunLast V c t h0 h1 (accBefore1 V c t)).2.2 Set.univ _)
      unfold ins1
      iframe H0 H1 H2 H3 H4 H5 H6 H7 H8 H9 H10 H11 H12 HS0
      isplitl [H13]
      · icases H13 with ⟨%d13, H13⟩; iexists _; iexact H13
      iintro ⟨⟨H0, H1, H2, H3, H4, H5, H6, H7, H8, H9, H10, H11, H12⟩, H13, HS0⟩
      ihave H13 := (owns_canon (c : Thread nD τ) fullShare (nodeRunLast V c t h0 h1 (accBefore1 V c t)).1 (by sl_kernel_rfl)) $$ H13
      ihave HS0 := (owns_canon (c : Thread nD τ) fullShare (nodeRunLast V c t h0 h1 (accBefore1 V c t)).2.1 (by sl_kernel_rfl)) $$ HS0
      unfold PhiAcc1; iframe
    · rw [Dat.leavesExact_idle _ 13 t (idleAt1_13 t h1).1 (idleAt1_13 t h1).2, accAt1_M V c t h0 h1]
      iintro ⟨⟨⟨HS0, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
      iapply ((nodeRunMid V c t h0 h1 (accBefore1 V c t)).2 Set.univ _)
      unfold ins1
      iframe H0 H1 H2 H3 H4 H5 H6 H7 H8 H9 H10 H11 H12 HS0
      iintro ⟨⟨H0, H1, H2, H3, H4, H5, H6, H7, H8, H9, H10, H11, H12⟩, HS0⟩
      ihave HS0 := (owns_canon (c : Thread nD τ) fullShare (nodeRunMid V c t h0 h1 (accBefore1 V c t)).1 (by sl_kernel_rfl)) $$ HS0
      unfold PhiAcc1; iframe

theorem body_obligation1 : BodyObligation (dat1 (F := F) V c) (defs₀ (F := F)) Variants.none () Set.univ := fun t => by
  rw [bigSep_W1, bigSep_W1]
  exact sound_body1 V c t

theorem hin1 : (Pipeline.ΦA spec1 c : sProp 𝕄) ⊢ (dat1 V c).Φ 0 := .rfl

theorem hout1 : (dat1 V c).Φ (Fin.last cfg1.N) ⊢ (Pipeline.ΦA spec1 c : sProp 𝕄) := by
  rw [show (dat1 V c).Φ (Fin.last cfg1.N) = PhiS1 V c cfg1.N (Nat.le_refl _) from rfl,
    PhiS1_pos V c _ _ (by rw [show cfg1.N = 32 from N_1]; decide), PhiA1_eq]
  unfold PhiAcc1
  iintro ⟨⟨HS0, Hb⟩, Hg⟩
  iframe
  iexists _; iexact HS0

end Panel

end Cert.Kernel.Hand

end
-- ==== Proof.LibRegionHeld.lean ====
import Idealize.ShloMosaic.Lib.Pipeline.RegionsLoop
import Idealize.ShloMosaic.Lib.Pipeline.Frame
import Idealize.ShloMosaic.Lib.StableHlo.Run

noncomputable section

namespace Idealize.ShloMosaic.Pipeline

open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {U : Type} [URA U] {Λ₀ : Labels} {P : Type} [Fintype P]

local notation "𝕄" => MT nD τ sig Unit Val ℕ U ℕ

/-- What rides beside the buffers from one item of @main to the next. -/
abbrev beside (c : Dev nD) : sProp 𝕄 :=
  iprop((∃ r, prngReg c r) ∗ ∃ W, owes (c : Thread nD τ) (0 : CellTallies nD τ sig Unit) W)

set_option backward.isDefEq.respectTransparency.types false in
/-- A region with one result window `o`, as a step from the buffer contents `V` to `V'`: `V` but for `o`'s array at its final contents. -/
def regionHeld (cfgs : P → Pipeline.Cfg sig Λ₀)
    (pd : (p : P) → (c : Dev nD) → Dat τ Val Unit ℕ U ℕ (Pipeline.pin (fun p => (cfgs p).toPCfg) (fun p => (cfgs p).toPCfg_adm) p) c)
    (defs₀ : Defs nD τ sig Val Λ₀) (p : P) (lf : Pipeline.LaunchFacts (nD := nD) (τ := τ) cfgs p)
    (o : Fin (cfgs p).W) (hone : ∀ w, w ≠ o → ((cfgs p).win w).isOut = false) (V V' : Dev nD → Valuation τ sig Val)
    (hV' : ∀ c, V' c = Function.update (V c) (Proc.devRef .tc (Pipeline.arrRef (cfgs p).spec o)) ((pd p c).arrAt o (cfgs p).N))
    (hb : ∀ c, BodyObligation (pd p c) defs₀ Variants.none () Set.univ)
    (hq : ∀ c w, (pd p c).q w = fullShare) (ho : ∀ c t, (pd p c).owed t = 0)
    (hr : ∀ c, (pd p c).recorded 0 = Set.univ)
    (hA : ∀ c w, (pd p c).A w = V c (Pipeline.arrRef (cfgs p).spec w))
    (hi : ∀ c, (Pipeline.ΦA (cfgs p).spec c : sProp 𝕄) ⊢ (pd p c).Φ 0)
    (hl : ∀ c, (pd p c).Φ (Fin.last (cfgs p).N) ⊢ (Pipeline.ΦA (cfgs p).spec c : sProp 𝕄)) :
    Pipeline.RegionSeg (fun p => (cfgs p).toPCfg) (fun p => (cfgs p).toPCfg_adm) pd () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ _ _ p ho
  pre c := iprop(StableHlo.held (c : Thread nD τ) (Pipeline.ucRefs τ sig) (V c) ∗ beside c)
  post c := iprop(StableHlo.held (c : Thread nD τ) (Pipeline.ucRefs τ sig) (V' c) ∗ beside c)
  X c := iprop(∃ r, prngReg c r)
  Y c := iprop(∃ r, prngReg c r)
  Z c := Pipeline.unscopedRest (Ix := Unit) (Name := ℕ) (U := U) (Lvl := ℕ) (cfgs p).spec c fun b => V c b
  hentry c := by
    rw [Pipeline.ownSems0_none]
    have hsplit := Pipeline.arrays_of_unscopedBufs _ _ pd lf.win lf.arr_whole c ((pd p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c 0]
      icases HO with ⟨%W, HO⟩; iexists W; isplitr
      · ipureintro; exact fun x _ => Or.inl ((hr c).symm ▸ Set.mem_univ x)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine (hl c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays _ _ lf.win lf.arr_whole c pd ((pd p c).share_full (hq c))
      (fun b => V c b) (fun b => V' c b) ((pd p c).arrAt · (cfgs p).N)
      (fun w => by
        rw [hV' c]
        by_cases h : w = o
        · subst h; rw [Function.update_self]
        · rw [Function.update_of_ne (StableHlo.devRef_ne_of_ne fun e => h (lf.win.arr_inj e)), ← hA c w]
          exact (pd p c).arrAt_in w (hone w h) _)
      (fun b hb => by
        have hne : b ≠ arrRef (cfgs p).spec o := fun e => hb (e ▸ Finset.mem_image_of_mem _ (Finset.mem_univ o))
        rw [hV' c, Function.update_of_ne (StableHlo.devRef_ne_of_ne hne)])
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho c _]
    icases HO with ⟨%W, -, HO⟩; iexists W; iexact HO

end Idealize.ShloMosaic.Pipeline

end
-- ==== Proof.BitsSegments.lean ====
import proofs.«110987_g5892695130345_cont_sun_m_578_16_alg».proof.Proof.Gen.Kernel.Regions
import proofs.«110987_g5892695130345_cont_sun_m_578_16_alg».proof.Proof.BitsEdgePassData
import proofs.«110987_g5892695130345_cont_sun_m_578_16_alg».proof.Proof.BitsNodePassFrame
import proofs.«110987_g5892695130345_cont_sun_m_578_16_alg».proof.Proof.LibRegionHeld

noncomputable section

namespace Cert.Kernel.Hand

open Cert.Kernel Cert.Kernel.Gen
open Idealize.ShloMosaic Idealize.ShloMosaic.TcCoe Idealize.ShloMosaic.Rounds
open Idealize.SL Idealize.SL.BI Idealize.SL.BI.BIBase Idealize.SL.ProofMode
open scoped Idealize.SL.BI

variable {F : FTy → Type} [FloatOps F]
variable (m : (ℓ : Loc nD τ sig) → Buf (Elt F) ℓ) (ρ : Dev nD → PrngReg)

local notation "𝕄" => MT nD τ sig Unit (Elt F) ℕ (UR sig nD τ) ℕ

abbrev ent0 : (c : Dev nD) → (b : Ref sig .tc) → Buf (Elt F) ((c : Thread nD τ).loc b) := fun c b => V1 m c b
def out0 (c : Dev nD) : Buf (Elt F) ((c : Thread nD τ).loc main_v12) := (dat0 (ent0 m) c).arrAt 7 cfg0.N
abbrev mid (c : Dev nD) : Valuation τ sig (Elt F) :=
  StableHlo.after hostOps1 (Function.update (V1 m c) main_v12 (out0 m c))
abbrev ent1 : (c : Dev nD) → (b : Ref sig .tc) → Buf (Elt F) ((c : Thread nD τ).loc b) := fun c b => mid m c b
def out1 (c : Dev nD) : Buf (Elt F) ((c : Thread nD τ).loc main_v39) := (dat1 (ent1 m) c).arrAt 13 cfg1.N

def outs : Outs (F := F) := fun _ r c =>
  Function.update (Function.update (fun r : Ref sig .tc => m ((c : Thread nD τ).loc r)) main_v12 (out0 m c)) main_v39 (out1 m c) r

theorem outs_v12 (c : Dev nD) : outs m 2 main_v12 c = out0 m c := by
  unfold outs; rw [Function.update_of_ne (by decide), Function.update_self]
theorem outs_v39 (c : Dev nD) : outs m 4 main_v39 c = out1 m c := by
  unfold outs; rw [Function.update_self]

theorem V3_eq (c : Dev nD) : V3 m (outs m) c = mid m c := by
  show StableHlo.after hostOps1 (Function.update (V1 m c) main_v12 (outs m 2 main_v12 c)) = _
  rw [outs_v12]

def pdats : (p : Fin 2) → (c : Dev nD) → Pipeline.Dat τ (Elt F) Unit ℕ (UR sig nD τ) ℕ (Pipeline.pin (pcfgs (F := F)) adm p) c
  | ⟨0, _⟩ => fun c => dat0 (ent0 m) c
  | ⟨1, _⟩ => fun c => dat1 (ent1 m) c

abbrev L : GSem nD τ sig → Finset Unit := fun _ => ∅
abbrev lv : GSem nD τ sig → Unit → ℕ := fun _ _ => 0

def reg0 : Pipeline.RegionSeg (pcfgs (F := F)) adm (pdats m) () defs₀ Variants.none L lv 0 :=
  Pipeline.regionHeld cfgs (pdats m) defs₀ 0 launch0 7 (by decide) (V1 m) (V2 m (outs m))
    (fun c => congrArg (Function.update (V1 m c) main_v12) (outs_v12 m c))
    (body_obligation0 _) (q0 _) (owed0 _) (recorded0 _ · 0) (A_eq0 _) (hin0 _) (hout0 _)

def reg1 : Pipeline.RegionSeg (pcfgs (F := F)) adm (pdats m) () defs₀ Variants.none L lv 1 :=
  Pipeline.regionHeld cfgs (pdats m) defs₀ 1 launch1 13 (by decide) (V3 m (outs m)) (V4 m (outs m))
    (fun c => congrArg (Function.update (V3 m (outs m) c) main_v39) (outs_v39 m c))
    (body_obligation1 _) (q1 _) (owed1 _) (recorded1 _ · 0) (fun c w => (A_eq1 _ c w).trans (congrFun (V3_eq m c).symm _)) (hin1 _) (hout1 _)

abbrev tok₀ := initOf (Pipeline.cells (nD := nD) (τ := τ) cfgs cellOf_inj) (Pipeline.launchToks cfgs cellOf_inj)

theorem launchElem : (ownU tok₀ : sProp 𝕄) ⊢ |={Set.univ}=> iprop(BI.own (emb₁ tok₀) ∗ bigSep Finset.univ fun _ : Dev nD => (BI.emp : sProp 𝕄)) := by
  rw [BI.bigSep_emp_const]; iintro Hu; imodintro; isplitl [Hu]
  · iapply (show (ownU tok₀ : sProp 𝕄) ⊢ BI.own (emb₁ tok₀) from .rfl); iexact Hu
  iempintro

abbrev args : List (Ref sig .tc) :=
  [main_arg0, main_arg1, main_arg2, main_arg3, main_arg4, main_arg5, main_arg6, main_arg7, main_arg8, main_arg9, main_arg10, main_arg11, main_arg12]
-- Every argument array holds what it was launched with.
abbrev kept (s : (ℓ : Loc nD τ sig) → Buf (Elt F) ℓ) (c : Dev nD) : Prop :=
  args.Forall fun r => s ((c.tc : Thread nD τ).loc r) = m ((c.tc : Thread nD τ).loc r)

theorem frame : θ_run defs (onTc (τ := τ) (main (F := F))) ⟨m, fun _ => 0, ρ⟩ (fun r => ∀ c : Dev nD, kept m r.2.mem c) :=
  frame_cond m emb₁ () Variants.none L lv (fun _ _ => rfl) ρ (outs m) (pdats m) 0 (fun _ => BI.emp) tok₀ launchElem (fun _ c => Pipeline.beside c)
    (Pipeline.initEach L lv fun c => by
      iintro ⟨⟨-, HO, -, Hp, -⟩, -⟩; imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

end Cert.Kernel.Hand

end
-- ==== Proof.EdgePassShared.lean ====
import proofs.«110987_g5892695130345_cont_sun_m_578_16_alg».proof.Proof.Gen.KernelIdeal.Launch
import proofs.«110987_g5892695130345_cont_sun_m_578_16_alg».proof.Proof.Gen.KernelIdeal.Skeleton
import proofs.«110987_g5892695130345_cont_sun_m_578_16_alg».proof.Proof.Gen.KernelIdeal.Points
import proofs.«110987_g5892695130345_cont_sun_m_578_16_alg».proof.Proof.LibOwns
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 :=
  (by decide +kernel : ∀ t : Fin grid0.N, cond0_0 (grid0.coords t) ↔ t.val = 0)

abbrev cond0_1 (i : grid0.Coords) : Prop := k0_cond2 i = 1#1

theorem hcond0_1 : ∀ t : Fin cfg0.N, cond0_1 (grid0.coords t) ↔ t.val = 31 :=
  (by decide +kernel : ∀ t : Fin grid0.N, cond0_1 (grid0.coords t) ↔ t.val = 31)

theorem liveAt0_in : ∀ w : Fin cfg0.W, w.val < 7 → ∀ t : Fin cfg0.N, cfg0.idle w (grid0.coords t) = false := by decide +kernel

theorem idleAt0_7 : ∀ t : Fin cfg0.N, ¬cond0_1 (grid0.coords t) → cfg0.idle 7 (grid0.coords t) = true := by decide +kernel

theorem noFlush0_7 : ∀ t : Fin cfg0.N, ¬cond0_1 (grid0.coords t) → (cfg0.win 7).flush t = false := by decide +kernel

theorem liveAt0_7 : ∀ t : Fin cfg0.N, cond0_1 (grid0.coords t) → cfg0.idle 7 (grid0.coords t) = false := by decide +kernel

abbrev ms0 (w : Fin cfg0.W) (t : Fin cfg0.N) := (cfg0.win w).stage (cfg0.slots t w)
abbrev hs0 (w : Fin cfg0.W) (t : Fin cfg0.N) : (ms0 w t).IsWhole := stage_whole0 w _

abbrev scM0_0 : Memref sig .tc .vmem S4096x65 .f32 := Memref.whole cc0_scratch0

structure Mems0 where
  a1 : Memref sig .tc .vmem S256x4096 .f32
  h1 : a1.IsWhole
  a2 : Memref sig .tc .vmem S256x64 .f32
  h2 : a2.IsWhole
  a3 : Memref sig .tc .vmem S4096x64 .f32
  h3 : a3.IsWhole
  a4 : Memref sig .tc .vmem S128x64 .f32
  h4 : a4.IsWhole
  a5 : Memref sig .tc .vmem S1x64 .f32
  h5 : a5.IsWhole
  a6 : Memref sig .tc .vmem S1x64 .f32
  h6 : a6.IsWhole
  a7 : Memref sig .tc .vmem S1x64 .f32
  h7 : a7.IsWhole
  a8 : Memref sig .tc .vmem S4096x65 .f32
  h8 : a8.IsWhole
  a9 : Memref sig .tc .vmem S4096x65 .f32
  h9 : a9.IsWhole

/-- The body on nine whole memrefs: seven inputs, the result window's buffer, the accumulator. -/
abbrev Mems0.body (M : Mems0) (i : grid0.Coords) :=
  cc0__p1_body (F := F) i M.a1 M.h1 M.a2 M.h2 M.a3 M.h3 M.a4 M.h4 M.a5 M.h5 M.a6 M.h6 M.a7 M.h7 M.a8 M.h8 M.a9 M.h9

/-- The memrefs the body is called with at panel `t`. -/
abbrev mems0 (t : Fin cfg0.N) : Mems0 :=
  ⟨ms0 0 t, hs0 0 t, ms0 1 t, hs0 1 t, ms0 2 t, hs0 2 t, ms0 3 t, hs0 3 t, ms0 4 t, hs0 4 t, ms0 5 t, hs0 5 t, ms0 6 t, hs0 6 t, ms0 7 t, hs0 7 t, scM0_0, Memref.isWhole_whole _⟩

/-- A scoped buffer held whole at some contents. -/
abbrev heldAny (c : Dev nD) (b : Ref sig .tc) : sProp 𝕄 :=
  iprop(∃ f : Buf (Elt F) ((c : Thread nD τ).loc b), ((c : Thread nD τ).loc b) ↦{fullShare} f)

def otherScoped (c : Dev nD) : sProp 𝕄 :=
  iprop(heldAny c cc1_stg0_0 ∗ heldAny c cc1_stg0_1 ∗ heldAny c cc1_stg1_0 ∗ heldAny c cc1_stg1_1 ∗ heldAny c cc1_stg2_0 ∗ heldAny c cc1_stg3_0 ∗ heldAny c cc1_stg4_0 ∗ heldAny c cc1_stg5_0 ∗ heldAny c cc1_stg6_0 ∗ heldAny c cc1_stg7_0 ∗ heldAny c cc1_stg8_0 ∗ heldAny c cc1_stg9_0 ∗ heldAny c cc1_stg10_0 ∗ heldAny c cc1_stg11_0 ∗ heldAny c cc1_stg12_0 ∗ heldAny c cc1_stg13_0 ∗ heldAny c cc1_scratch0)

theorem PhiA0_eq (c : Dev nD) :
    (Pipeline.ΦA spec0 c : sProp 𝕄)
      = iprop(iprop((∃ d, owns (c : Thread nD τ) scM0_0 fullShare d) ∗ otherScoped (F := F) c) ∗ (∃ r, prngReg c r)) := by
  unfold Pipeline.ΦA otherScoped; rw [scopedRest0_eq]; simp only [scM0_0, owns_whole]; try rfl

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Cert.KernelIdeal.Hand

end
-- ==== Proof.EdgePassRunFirst.lean ====
import proofs.«110987_g5892695130345_cont_sun_m_578_16_alg».proof.Proof.EdgePassShared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_First (c : Dev nD) (i : grid0.Coords) (M : Mems0) (hc0 : cond0_0 i) (hc1 : ¬cond0_1 i)
    (x0 : Vec F S256x4096 .f32) (x1 : Vec F S256x64 .f32) :
    { LS0 : List (View.Piece (Elt F) S4096x65 .f32) //
      ∀ (E : Set ℕ) (K : PUnit → sProp 𝕄),
        iprop(owns (c : Thread nD τ) M.a1 fullShare x0 ∗ owns (c : Thread nD τ) M.a2 fullShare x1 ∗ (∃ d, owns (c : Thread nD τ) M.a9 fullShare d)
            ∗ (iprop(owns (c : Thread nD τ) M.a1 fullShare x0 ∗ owns (c : Thread nD τ) M.a2 fullShare x1 ∗ (∃ f, M.a9.view.loc (c : Thread nD τ) ↦[M.a9.view.set]{fullShare} M.a9.view.writes (Elt F) f LS0)) -∗ K ⟨⟩))
          ⊢ wp frame (wpE (defs₀ (F := F)) Variants.none c none) E (M.body i) K } := by
  obtain ⟨arg1, harg1, arg2, harg2, arg3, harg3, arg4, harg4, arg5, harg5, arg6, harg6, arg7, harg7, arg8, harg8, arg9, harg9⟩ := M
  refine ⟨?_, fun E K => ?run⟩
  case run =>
    simp only [Mems0.body, cc0__p1_body_eq_skeleton]; unfold cc0__p1_body_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.EdgePassRunMid.lean ====
import proofs.«110987_g5892695130345_cont_sun_m_578_16_alg».proof.Proof.EdgePassRunFirst

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_Mid (c : Dev nD) (i : grid0.Coords) (M : Mems0) (hc0 : ¬cond0_0 i) (hc1 : ¬cond0_1 i)
    (x0 : Vec F S256x4096 .f32) (x1 : Vec F S256x64 .f32) (xs0 : Vec F S4096x65 .f32) :
    { LS0 : List (View.Piece (Elt F) S4096x65 .f32) //
      ∀ (E : Set ℕ) (K : PUnit → sProp 𝕄),
        iprop(owns (c : Thread nD τ) M.a1 fullShare x0 ∗ owns (c : Thread nD τ) M.a2 fullShare x1 ∗ owns (c : Thread nD τ) M.a9 fullShare xs0
            ∗ (iprop(owns (c : Thread nD τ) M.a1 fullShare x0 ∗ owns (c : Thread nD τ) M.a2 fullShare x1 ∗ (∃ f, M.a9.view.loc (c : Thread nD τ) ↦[M.a9.view.set]{fullShare} M.a9.view.writes (Elt F) f LS0)) -∗ K ⟨⟩))
          ⊢ wp frame (wpE (defs₀ (F := F)) Variants.none c none) E (M.body i) K } := by
  obtain ⟨arg1, harg1, arg2, harg2, arg3, harg3, arg4, harg4, arg5, harg5, arg6, harg6, arg7, harg7, arg8, harg8, arg9, harg9⟩ := M
  refine ⟨?_, fun E K => ?run⟩
  case run =>
    simp only [Mems0.body, cc0__p1_body_eq_skeleton]; unfold cc0__p1_body_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.EdgePassRunLast.lean ====
import proofs.«110987_g5892695130345_cont_sun_m_578_16_alg».proof.Proof.EdgePassRunMid

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in

noncomputable def kernelRun0_Last (c : Dev nD) (i : grid0.Coords) (M : Mems0) (hc0 : ¬cond0_0 i) (hc1 : cond0_1 i)
    (x0 : Vec F S256x4096 .f32) (x1 : Vec F S256x64 .f32) (x2 : Vec F S4096x64 .f32) (x3 : Vec F S128x64 .f32) (x4 : Vec F S1x64 .f32) (x5 : Vec F S1x64 .f32) (x6 : Vec F S1x64 .f32) (xs0 : Vec F S4096x65 .f32) :
    Σ' (L7 : List (View.Piece (Elt F) S4096x65 .f32)), { LS0 : List (View.Piece (Elt F) S4096x65 .f32) //
      ∀ (E : Set ℕ) (K : PUnit → sProp 𝕄),
        iprop(owns (c : Thread nD τ) M.a1 fullShare x0 ∗ owns (c : Thread nD τ) M.a2 fullShare x1 ∗ owns (c : Thread nD τ) M.a3 fullShare x2 ∗ owns (c : Thread nD τ) M.a4 fullShare x3 ∗ owns (c : Thread nD τ) M.a5 fullShare x4 ∗ owns (c : Thread nD τ) M.a6 fullShare x5 ∗ owns (c : Thread nD τ) M.a7 fullShare x6 ∗ (∃ d, owns (c : Thread nD τ) M.a8 fullShare d) ∗ owns (c : Thread nD τ) M.a9 fullShare xs0
            ∗ (iprop(owns (c : Thread nD τ) M.a1 fullShare x0 ∗ owns (c : Thread nD τ) M.a2 fullShare x1 ∗ owns (c : Thread nD τ) M.a3 fullShare x2 ∗ owns (c : Thread nD τ) M.a4 fullShare x3 ∗ owns (c : Thread nD τ) M.a5 fullShare x4 ∗ owns (c : Thread nD τ) M.a6 fullShare x5 ∗ owns (c : Thread nD τ) M.a7 fullShare x6 ∗ (∃ f, M.a8.view.loc (c : Thread nD τ) ↦[M.a8.view.set]{fullShare} M.a8.view.writes (Elt F) f L7) ∗ (∃ f, M.a9.view.loc (c : Thread nD τ) ↦[M.a9.view.set]{fullShare} M.a9.view.writes (Elt F) f LS0)) -∗ K ⟨⟩))
          ⊢ wp frame (wpE (defs₀ (F := F)) Variants.none c none) E (M.body i) K } := by
  obtain ⟨arg1, harg1, arg2, harg2, arg3, harg3, arg4, harg4, arg5, harg5, arg6, harg6, arg7, harg7, arg8, harg8, arg9, harg9⟩ := M
  refine ⟨?_, ?_, fun E K => ?run⟩
  case run =>
    simp only [Mems0.body, cc0__p1_body_eq_skeleton]; unfold cc0__p1_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.KernelIdeal.Hand

end
-- ==== Proof.EdgePassData.lean ====
import proofs.«110987_g5892695130345_cont_sun_m_578_16_alg».proof.Proof.EdgePassRunLast

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Panel

variable (c : Dev nD) (t : Fin cfg0.N)

theorem is0 (h : t.val = 0) : cond0_0 (grid0.coords t) := (hcond0_0 t).mpr h
theorem not0 (h : ¬t.val = 0) : ¬cond0_0 (grid0.coords t) := fun h' => h ((hcond0_0 t).mp h')
theorem is31 (h : t.val = 31) : cond0_1 (grid0.coords t) := (hcond0_1 t).mpr h
theorem not31 (h : ¬t.val = 31) : ¬cond0_1 (grid0.coords t) := fun h' => h ((hcond0_1 t).mp h')

/-- The body's run in each of its three control cases, at panel `t`. -/
abbrev runF (h0 : t.val = 0) (h1 : ¬t.val = 31) :=
  kernelRun0_First c (grid0.coords t) (mems0 t) (is0 t h0) (not31 t h1) (iblk0 V c 0 t) (iblk0 V c 1 t)
abbrev runM (h0 : ¬t.val = 0) (h1 : ¬t.val = 31) (xs0 : Vec F S4096x65 .f32) :=
  kernelRun0_Mid c (grid0.coords t) (mems0 t) (not0 t h0) (not31 t h1) (iblk0 V c 0 t) (iblk0 V c 1 t) xs0
abbrev runL (h0 : ¬t.val = 0) (h1 : t.val = 31) (xs0 : Vec F S4096x65 .f32) :=
  kernelRun0_Last c (grid0.coords t) (mems0 t) (not0 t h0) (is31 t h1) (iblk0 V c 0 t) (iblk0 V c 1 t) (iblk0 V c 2 t) (iblk0 V c 3 t) (iblk0 V c 4 t) (iblk0 V c 5 t) (iblk0 V c 6 t) xs0

end Panel

/-- The accumulator after panel `n`: what the panel's run stored, over what the panel before left. -/
def accAt0 (c : Dev nD) : (n : ℕ) → n < cfg0.N → Vec F S4096x65 .f32
  | 0, hn => View.canon (runF V c ⟨0, hn⟩ rfl (show ¬(0 : ℕ) = 31 by decide)).1
  | n + 1, hn =>
    if h1 : n + 1 = 31 then View.canon (runL V c ⟨n + 1, hn⟩ (Nat.succ_ne_zero n) h1 (accAt0 c n (Nat.lt_of_succ_lt hn))).2.1
    else View.canon (runM V c ⟨n + 1, hn⟩ (Nat.succ_ne_zero n) h1 (accAt0 c n (Nat.lt_of_succ_lt hn))).1

/-- The accumulator the panel before `t` left. -/
abbrev accBefore0 (c : Dev nD) (t : Fin cfg0.N) : Vec F S4096x65 .f32 :=
  accAt0 V c (t.val - 1) (Nat.lt_of_le_of_lt (Nat.sub_le _ _) t.isLt)

theorem accAt0_F (c : Dev nD) (t : Fin cfg0.N) (h0 : t.val = 0) (h1 : ¬t.val = 31) :
    accAt0 V c t.val t.isLt = View.canon (runF V c t h0 h1).1 := by
  obtain ⟨n, hn⟩ := t
  cases n with
  | zero => rfl
  | succ n => exact absurd h0 (Nat.succ_ne_zero n)

theorem accAt0_M (c : Dev nD) (t : Fin cfg0.N) (h0 : ¬t.val = 0) (h1 : ¬t.val = 31) :
    accAt0 V c t.val t.isLt = View.canon (runM V c t h0 h1 (accBefore0 V c t)).1 := by
  obtain ⟨n, hn⟩ := t
  cases n with
  | zero => exact absurd rfl h0
  | succ n => exact (dif_neg h1).trans rfl

theorem accAt0_L (c : Dev nD) (t : Fin cfg0.N) (h0 : ¬t.val = 0) (h1 : t.val = 31) :
    accAt0 V c t.val t.isLt = View.canon (runL V c t h0 h1 (accBefore0 V c t)).2.1 := by
  obtain ⟨n, hn⟩ := t
  cases n with
  | zero => exact absurd rfl h0
  | succ n => exact (dif_pos h1).trans rfl

/-- What panel 31 stores as the pass's result; at an earlier panel nothing is stored. -/
def resAt0 (c : Dev nD) (t : Fin cfg0.N) : Vec F S4096x65 .f32 :=
  if h1 : t.val = 31 then View.canon (runL V c t (by omega) h1 (accBefore0 V c t)).1
  else View.canon []

theorem resAt0_L (c : Dev nD) (t : Fin cfg0.N) (h0 : ¬t.val = 0) (h1 : t.val = 31) :
    resAt0 V c t = View.canon (runL V c t h0 h1 (accBefore0 V c t)).1 := dif_pos h1

/-- The invariant before panel `n`: from panel 1 on the accumulator holds what panel `n - 1` left. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt0 V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt0 V c (n - 1) (by omega)) ∗ otherScoped (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => resAt0 V c t
  Φ t := PhiS V c t.val (Nat.le_of_lt_succ t.isLt)
  q _ := fullShare
  owed _ := 0

theorem A_eq0 (c : Dev nD) (w : Fin cfg0.W) : (dat0 V c).A w = V c (Pipeline.arrRef spec0 w) := rfl
theorem q0 (c : Dev nD) (w : Fin cfg0.W) : (dat0 V c).q w = fullShare := rfl
theorem owed0 (c : Dev nD) (t : Fin (cfg0.N + 1)) : (dat0 V c).owed t = 0 := rfl
theorem recorded0 (c : Dev nD) (t : Fin (cfg0.N + 1)) : (dat0 V c).recorded t = Set.univ := rfl

theorem after0_0 (c : Dev nD) (t : Fin cfg0.N) : (dat0 V c).after 0 t = iblk0 V c 0 t := rfl
theorem after0_1 (c : Dev nD) (t : Fin cfg0.N) : (dat0 V c).after 1 t = iblk0 V c 1 t := rfl
theorem after0_2 (c : Dev nD) (t : Fin cfg0.N) : (dat0 V c).after 2 t = iblk0 V c 2 t := rfl
theorem after0_3 (c : Dev nD) (t : Fin cfg0.N) : (dat0 V c).after 3 t = iblk0 V c 3 t := rfl
theorem after0_4 (c : Dev nD) (t : Fin cfg0.N) : (dat0 V c).after 4 t = iblk0 V c 4 t := rfl
theorem after0_5 (c : Dev nD) (t : Fin cfg0.N) : (dat0 V c).after 5 t = iblk0 V c 5 t := rfl
theorem after0_6 (c : Dev nD) (t : Fin cfg0.N) : (dat0 V c).after 6 t = iblk0 V c 6 t := rfl
theorem after0_7 (c : Dev nD) (t : Fin cfg0.N) : (dat0 V c).after 7 t = resAt0 V c t := rfl

theorem before0_in (c : Dev nD) (w : Fin cfg0.W) (hw : w.val < 7) (t : Fin cfg0.N) (d) :
    (dat0 V c).before w t d = (dat0 V c).after w t := by
  fin_cases w <;> first
    | exact absurd hw (by decide)
    | exact ((dat0 V c).before_in_eq_fetched _ rfl (fun _ => rfl) (fun _ _ _ => rfl) (fun _ => rfl) t d).trans rfl

theorem leaves0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

def bodyPre0 (c : Dev nD) (t : Fin cfg0.N) : sProp 𝕄 :=
  iprop((dat0 V c).Φ t.castSucc ∗ (dat0 V c).owesAt () t.castSucc
    ∗ (∃ d, owns (c : Thread nD τ) (ms0 0 t) fullShare ((dat0 V c).before 0 t d))
    ∗ (∃ d, owns (c : Thread nD τ) (ms0 1 t) fullShare ((dat0 V c).before 1 t d))
    ∗ (∃ d, owns (c : Thread nD τ) (ms0 2 t) fullShare ((dat0 V c).before 2 t d))
    ∗ (∃ d, owns (c : Thread nD τ) (ms0 3 t) fullShare ((dat0 V c).before 3 t d))
    ∗ (∃ d, owns (c : Thread nD τ) (ms0 4 t) fullShare ((dat0 V c).before 4 t d))
    ∗ (∃ d, owns (c : Thread nD τ) (ms0 5 t) fullShare ((dat0 V c).before 5 t d))
    ∗ (∃ d, owns (c : Thread nD τ) (ms0 6 t) fullShare ((dat0 V c).before 6 t d))
    ∗ (∃ d, owns (c : Thread nD τ) (ms0 7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any panel: the panel index selects the run; the invariant hands it the accumulator the panel before left and takes it back at this panel's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_in V c 0 (by decide) t, before0_in V c 1 (by decide) t, before0_in V c 2 (by decide) t, before0_in V c 3 (by decide) t, before0_in V c 4 (by decide) t, before0_in V c 5 (by decide) t, before0_in V c 6 (by decide) t]
  rw [show (dat0 V c).owesAt () t.succ = (dat0 V c).owesAt () t.castSucc from rfl]
  rw [show (dat0 V c).Φ t.succ = PhiS V c (t.val + 1) t.isLt from rfl, PhiS_succ, show (dat0 V c).Φ t.castSucc = PhiS V c t.val (Nat.le_of_lt t.isLt) from rfl]
  rw [leaves0 V c 0 t (liveAt0_in 0 (by decide) t), leaves0 V c 1 t (liveAt0_in 1 (by decide) t), leaves0 V c 2 t (liveAt0_in 2 (by decide) t), leaves0 V c 3 t (liveAt0_in 3 (by decide) t),
    leaves0 V c 4 t (liveAt0_in 4 (by decide) t), leaves0 V c 5 t (liveAt0_in 5 (by decide) t), leaves0 V c 6 t (liveAt0_in 6 (by decide) t)]
  simp only [after0_0, after0_1, after0_2, after0_3, after0_4, after0_5, after0_6]
  by_cases h0 : t.val = 0
  · have h1 : ¬t.val = 31 := by omega
    rw [Dat.leavesExact_idle (dat0 V c) 7 t (idleAt0_7 t (not31 t h1)) (noFlush0_7 t (not31 t h1))]
    rw [accAt0_F V c t h0 h1, PhiS_zero V c _ _ h0, PhiA0_eq]
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, H7⟩
    iapply ((runF V c t h0 h1).2 Set.univ _)
    iframe H0 H1 HS0
    iintro ⟨H0, H1, HS0⟩
    iframe Hoth Hg Ho H0 H1 H2 H3 H4 H5 H6 H7
    iapply owns_canon _ fullShare _ (by sl_kernel_rfl); iexact HS0
  · rw [PhiS_pos V c _ _ h0]
    by_cases h1 : t.val = 31
    · rw [leaves0 V c 7 t (liveAt0_7 t (is31 t h1)), after0_7, accAt0_L V c t h0 h1, resAt0_L V c t h0 h1]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runL V c t h0 h1 _).2.2 Set.univ _)
      iframe H0 H1 H2 H3 H4 H5 H6 HS0
      isplitl [H7]; · iexists _; iexact H7
      iintro ⟨H0, H1, H2, H3, H4, H5, H6, H7, HS0⟩
      iframe Hoth Hg Ho H0 H1 H2 H3 H4 H5 H6
      isplitl [HS0]
      · iapply owns_canon _ fullShare _ (by sl_kernel_rfl); iexact HS0
      iapply owns_canon _ fullShare _ (by sl_kernel_rfl); iexact H7
    · rw [Dat.leavesExact_idle (dat0 V c) 7 t (idleAt0_7 t (not31 t h1)) (noFlush0_7 t (not31 t h1))]
      rw [accAt0_M V c t h0 h1]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, H7⟩
      iapply ((runM V c t h0 h1 _).2 Set.univ _)
      iframe H0 H1 HS0
      iintro ⟨H0, H1, HS0⟩
      iframe Hoth Hg Ho H0 H1 H2 H3 H4 H5 H6 H7
      iapply owns_canon _ fullShare _ (by sl_kernel_rfl); iexact HS0

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

/-- After the last panel the accumulator's value is forgotten. -/
theorem hout0 (c : Dev nD) : (dat0 V c).Φ (Fin.last cfg0.N) ⊢ (Pipeline.ΦA spec0 c : sProp 𝕄) := by
  rw [show (dat0 V c).Φ (Fin.last cfg0.N) = PhiS V c cfg0.N (Nat.le_refl _) from rfl,
    PhiS_pos V c _ _ (by rw [show cfg0.N = 32 from N_0]; decide), PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.NodePassShared.lean ====
import proofs.«110987_g5892695130345_cont_sun_m_578_16_alg».proof.Proof.Gen.KernelIdeal.Launch
import proofs.«110987_g5892695130345_cont_sun_m_578_16_alg».proof.Proof.Gen.KernelIdeal.Skeleton
import proofs.«110987_g5892695130345_cont_sun_m_578_16_alg».proof.Proof.Gen.KernelIdeal.Points
import proofs.«110987_g5892695130345_cont_sun_m_578_16_alg».proof.Proof.LibOwns
import Idealize.ShloMosaic.Lib.Pipeline.FrameBody
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
abbrev cond1_1 (i : grid1.Coords) : Prop := k1_cond2 i = 1#1
theorem hcond1_1 : ∀ t : Fin cfg1.N, cond1_1 (grid1.coords t) ↔ t.val = 31 :=
  (by decide +kernel : ∀ t : Fin grid1.N, cond1_1 (grid1.coords t) ↔ t.val = 31)

theorem liveAt1_in : ∀ (w : Fin cfg1.W), w.val < 13 → ∀ t : Fin cfg1.N, cfg1.idle w (grid1.coords t) = false := by decide +kernel
theorem idleAt1_13 : ∀ t : Fin cfg1.N, ¬t.val = 31 → cfg1.idle 13 (grid1.coords t) = true ∧ (cfg1.win 13).flush t = false := by decide +kernel
theorem liveAt1_13 : ∀ t : Fin cfg1.N, t.val = 31 → cfg1.idle 13 (grid1.coords t) = false := by decide +kernel

abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)
abbrev ms1_4 (t : Fin cfg1.N) := win1_4.stage (cfg1.slots t 4)
abbrev ms1_5 (t : Fin cfg1.N) := win1_5.stage (cfg1.slots t 5)
abbrev ms1_6 (t : Fin cfg1.N) := win1_6.stage (cfg1.slots t 6)
abbrev ms1_7 (t : Fin cfg1.N) := win1_7.stage (cfg1.slots t 7)
abbrev ms1_8 (t : Fin cfg1.N) := win1_8.stage (cfg1.slots t 8)
abbrev ms1_9 (t : Fin cfg1.N) := win1_9.stage (cfg1.slots t 9)
abbrev ms1_10 (t : Fin cfg1.N) := win1_10.stage (cfg1.slots t 10)
abbrev ms1_11 (t : Fin cfg1.N) := win1_11.stage (cfg1.slots t 11)
abbrev ms1_12 (t : Fin cfg1.N) := win1_12.stage (cfg1.slots t 12)
abbrev ms1_13 (t : Fin cfg1.N) := win1_13.stage (cfg1.slots t 13)
abbrev scM1_0 : Memref sig .tc .vmem S4096x65 .f32 := Memref.whole cc1_scratch0

-- The region invariant with the accumulator's part P singled out.
abbrev PhiAcc1 (c : Dev nD) (P : sProp 𝕄) : sProp 𝕄 :=
  iprop((P ∗ Pipeline.scopedRestBut (Ix := Unit) (Name := ℕ) (U := UR sig nD τ) (Lvl := ℕ) (Val := Elt F) spec1 c [cc1_scratch0]) ∗ ∃ r, prngReg c r)

theorem PhiA1_eq (c : Dev nD) : (Pipeline.ΦA spec1 c : sProp 𝕄) = PhiAcc1 c iprop(∃ d, owns (c : Thread nD τ) scM1_0 fullShare d) := by
  unfold Pipeline.ΦA
  rw [Pipeline.scopedRest_split_of_list spec1 c [cc1_scratch0] (by decide) (by decide)]
  simp only [scM1_0, owns_whole]
  rfl

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The thirteen input blocks of panel t, each owned through its memref.
def ins1 (c : Dev nD) (t : Fin cfg1.N) : sProp 𝕄 :=
  iprop(owns (c : Thread nD τ) (ms1_0 t) fullShare (iblk1 V c 0 t) ∗ owns (c : Thread nD τ) (ms1_1 t) fullShare (iblk1 V c 1 t) ∗ owns (c : Thread nD τ) (ms1_2 t) fullShare (iblk1 V c 2 t) ∗ owns (c : Thread nD τ) (ms1_3 t) fullShare (iblk1 V c 3 t) ∗ owns (c : Thread nD τ) (ms1_4 t) fullShare (iblk1 V c 4 t) ∗ owns (c : Thread nD τ) (ms1_5 t) fullShare (iblk1 V c 5 t) ∗ owns (c : Thread nD τ) (ms1_6 t) fullShare (iblk1 V c 6 t) ∗ owns (c : Thread nD τ) (ms1_7 t) fullShare (iblk1 V c 7 t) ∗ owns (c : Thread nD τ) (ms1_8 t) fullShare (iblk1 V c 8 t) ∗ owns (c : Thread nD τ) (ms1_9 t) fullShare (iblk1 V c 9 t) ∗ owns (c : Thread nD τ) (ms1_10 t) fullShare (iblk1 V c 10 t) ∗ owns (c : Thread nD τ) (ms1_11 t) fullShare (iblk1 V c 11 t) ∗ owns (c : Thread nD τ) (ms1_12 t) fullShare (iblk1 V c 12 t))

end Cert.KernelIdeal.Hand

end
-- ==== Proof.NodePassRunFirst.lean ====
import proofs.«110987_g5892695130345_cont_sun_m_578_16_alg».proof.Proof.NodePassShared

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
-- The body at the first point: the accumulator, found at anything, ends with the pieces LS0 written.
def nodeRunFirst (c : Dev nD) (t : Fin cfg1.N) (h0 : t.val = 0) (h1 : ¬t.val = 31) :
    { LS0 : List (View.Piece (Elt F) S4096x65 .f32) //
      ∀ (E : Set ℕ) (K : PUnit → sProp 𝕄),
        iprop(ins1 V c t ∗ (∃ d, owns (c : Thread nD τ) scM1_0 fullShare d)
            ∗ (iprop(ins1 V c t ∗ (∃ f, scM1_0.view.loc (c : Thread nD τ) ↦[scM1_0.view.set]{fullShare} scM1_0.view.writes (Elt F) f LS0)) -∗ K ⟨⟩))
          ⊢ wp frame (wpE (defs₀ (F := F)) Variants.none c none) E (bodyAt1 t) K } := by
  have hc0 : cond1_0 (grid1.coords t) := (hcond1_0 t).mpr h0
  have hc1 : ¬cond1_1 (grid1.coords t) := fun h => h1 ((hcond1_1 t).mp h)
  refine ⟨?_, fun E K => ?run⟩
  case run =>
    unfold ins1 bodyAt1
    simp only [cc1__p2_body_eq_skeleton]; unfold cc1__p2_body_skel
    simp only [k1_part1_eq_skeleton, k1_part2_eq_skeleton]
    rw [owns_unread _ (hstage1_0 _), owns_unread _ (hstage1_1 _), owns_unread _ (hstage1_2 _), owns_unread _ (hstage1_3 _), owns_unread _ (hstage1_4 _), owns_unread _ (hstage1_5 _), owns_unread _ (hstage1_6 _), owns_unread _ (hstage1_7 _), owns_unread _ (hstage1_8 _), owns_unread _ (hstage1_9 _), owns_unread _ (hstage1_10 _), owns_unread _ (hstage1_11 _), owns_unread _ (hstage1_12 _)]
    unfold owns
    iintro ⟨⟨H0, H1, H2, H3, H4, H5, H6, H7, H8, H9, H10, H11, H12⟩, ⟨%ds0, %fs0, -, HS0⟩, Hk⟩
    sl_exec (disch := first | exact hc0 | exact hc1)
    sl_step
    iapply Hk
    iframe
    iexists _; iexact HS0

end Cert.KernelIdeal.Hand

end
-- ==== Proof.NodePassRunMid.lean ====
import proofs.«110987_g5892695130345_cont_sun_m_578_16_alg».proof.Proof.NodePassRunFirst

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
-- The body at a middle point: the accumulator, found at xs0, ends with the pieces LS0 written.
def nodeRunMid (c : Dev nD) (t : Fin cfg1.N) (h0 : ¬t.val = 0) (h1 : ¬t.val = 31) (xs0 : Vec F S4096x65 .f32) :
    { LS0 : List (View.Piece (Elt F) S4096x65 .f32) //
      ∀ (E : Set ℕ) (K : PUnit → sProp 𝕄),
        iprop(ins1 V c t ∗ owns (c : Thread nD τ) scM1_0 fullShare xs0
            ∗ (iprop(ins1 V c t ∗ (∃ f, scM1_0.view.loc (c : Thread nD τ) ↦[scM1_0.view.set]{fullShare} scM1_0.view.writes (Elt F) f LS0)) -∗ K ⟨⟩))
          ⊢ wp frame (wpE (defs₀ (F := F)) Variants.none c none) E (bodyAt1 t) K } := by
  have hc0 : ¬cond1_0 (grid1.coords t) := fun h => h0 ((hcond1_0 t).mp h)
  have hc1 : ¬cond1_1 (grid1.coords t) := fun h => h1 ((hcond1_1 t).mp h)
  refine ⟨?_, fun E K => ?run⟩
  case run =>
    unfold ins1 bodyAt1
    simp only [cc1__p2_body_eq_skeleton]; unfold cc1__p2_body_skel
    simp only [k1_part1_eq_skeleton, k1_part2_eq_skeleton]
    rw [owns_unread _ (hstage1_0 _), owns_unread _ (hstage1_1 _), owns_unread _ (hstage1_2 _), owns_unread _ (hstage1_3 _), owns_unread _ (hstage1_4 _), owns_unread _ (hstage1_5 _), owns_unread _ (hstage1_6 _), owns_unread _ (hstage1_7 _), owns_unread _ (hstage1_8 _), owns_unread _ (hstage1_9 _), owns_unread _ (hstage1_10 _), owns_unread _ (hstage1_11 _), owns_unread _ (hstage1_12 _)]
    unfold owns
    iintro ⟨⟨H0, H1, H2, H3, H4, H5, H6, H7, H8, H9, H10, H11, H12⟩, ⟨%fs0, %hfs0, HS0⟩, Hk⟩
    obtain rfl := (Memref.isWhole_whole cc1_scratch0).eq_unread hfs0
    sl_exec (disch := first | exact hc0 | exact hc1)
    sl_step
    iapply Hk
    iframe
    iexists _; iexact HS0

end Cert.KernelIdeal.Hand

end
-- ==== Proof.NodePassRunLast.lean ====
import proofs.«110987_g5892695130345_cont_sun_m_578_16_alg».proof.Proof.NodePassRunMid

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
-- The body at the last point: the accumulator, found at xs0, and the result window, found at anything, end with the pieces LS0 and L13 written.
def nodeRunLast (c : Dev nD) (t : Fin cfg1.N) (h0 : ¬t.val = 0) (h1 : t.val = 31) (xs0 : Vec F S4096x65 .f32) :
    Σ' (L13 : List (View.Piece (Elt F) S4096x1 .f32)), { LS0 : List (View.Piece (Elt F) S4096x65 .f32) //
      ∀ (E : Set ℕ) (K : PUnit → sProp 𝕄),
        iprop(ins1 V c t ∗ (∃ d, owns (c : Thread nD τ) (ms1_13 t) fullShare d) ∗ owns (c : Thread nD τ) scM1_0 fullShare xs0
            ∗ (iprop(ins1 V c t ∗ (∃ f, (ms1_13 t).view.loc (c : Thread nD τ) ↦[(ms1_13 t).view.set]{fullShare} (ms1_13 t).view.writes (Elt F) f L13) ∗ (∃ f, scM1_0.view.loc (c : Thread nD τ) ↦[scM1_0.view.set]{fullShare} scM1_0.view.writes (Elt F) f LS0)) -∗ K ⟨⟩))
          ⊢ wp frame (wpE (defs₀ (F := F)) Variants.none c none) E (bodyAt1 t) K } := by
  have hc0 : ¬cond1_0 (grid1.coords t) := fun h => h0 ((hcond1_0 t).mp h)
  have hc1 : cond1_1 (grid1.coords t) := (hcond1_1 t).mpr h1
  refine ⟨?_, ?_, fun E K => ?run⟩
  case run =>
    unfold ins1 bodyAt1
    simp only [cc1__p2_body_eq_skeleton]; unfold cc1__p2_body_skel
    simp only [k1_part1_eq_skeleton, k1_part2_eq_skeleton]
    rw [owns_unread _ (hstage1_0 _), owns_unread _ (hstage1_1 _), owns_unread _ (hstage1_2 _), owns_unread _ (hstage1_3 _), owns_unread _ (hstage1_4 _), owns_unread _ (hstage1_5 _), owns_unread _ (hstage1_6 _), owns_unread _ (hstage1_7 _), owns_unread _ (hstage1_8 _), owns_unread _ (hstage1_9 _), owns_unread _ (hstage1_10 _), owns_unread _ (hstage1_11 _), owns_unread _ (hstage1_12 _)]
    unfold owns
    iintro ⟨⟨H0, H1, H2, H3, H4, H5, H6, H7, H8, H9, H10, H11, H12⟩, ⟨%d13, %f13, -, H13⟩, ⟨%fs0, %hfs0, HS0⟩, Hk⟩
    obtain rfl := (Memref.isWhole_whole cc1_scratch0).eq_unread hfs0
    sl_exec (disch := first | exact hc0 | exact hc1)
    sl_step
    iapply Hk
    iframe
    isplitl [H13]
    · iexists _; iexact H13
    iexists _; iexact HS0

end Cert.KernelIdeal.Hand

end
-- ==== Proof.NodePassFrame.lean ====
import proofs.«110987_g5892695130345_cont_sun_m_578_16_alg».proof.Proof.NodePassRunLast

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The accumulator after panel n: the read-back of what the panel's run stored, over what the panel before left.
def accAt1 (c : Dev nD) : (n : ℕ) → n < cfg1.N → Vec F S4096x65 .f32
  | 0, hn => View.canon (nodeRunFirst V c ⟨0, hn⟩ rfl (show ¬(0 : ℕ) = 31 by decide)).1
  | n + 1, hn =>
    if h1 : n + 1 = 31 then View.canon (nodeRunLast V c ⟨n + 1, hn⟩ (Nat.succ_ne_zero n) h1 (accAt1 c n (Nat.lt_of_succ_lt hn))).2.1
    else View.canon (nodeRunMid V c ⟨n + 1, hn⟩ (Nat.succ_ne_zero n) h1 (accAt1 c n (Nat.lt_of_succ_lt hn))).1

abbrev accBefore1 (c : Dev nD) (t : Fin cfg1.N) : Vec F S4096x65 .f32 :=
  accAt1 V c (t.val - 1) (Nat.lt_of_le_of_lt (Nat.sub_le _ _) t.isLt)

section Panel

variable (c : Dev nD) (t : Fin cfg1.N)

theorem accAt1_F (h0 : t.val = 0) (h1 : ¬t.val = 31) : accAt1 V c t.val t.isLt = View.canon (nodeRunFirst V c t h0 h1).1 := by
  obtain ⟨n, hn⟩ := t
  cases n with
  | zero => rfl
  | succ n => exact absurd h0 (Nat.succ_ne_zero n)

theorem accAt1_M (h0 : ¬t.val = 0) (h1 : ¬t.val = 31) : accAt1 V c t.val t.isLt = View.canon (nodeRunMid V c t h0 h1 (accBefore1 V c t)).1 := by
  obtain ⟨n, hn⟩ := t
  cases n with
  | zero => exact absurd rfl h0
  | succ n => exact (dif_neg h1).trans rfl

theorem accAt1_L (h0 : ¬t.val = 0) (h1 : t.val = 31) : accAt1 V c t.val t.isLt = View.canon (nodeRunLast V c t h0 h1 (accBefore1 V c t)).2.1 := by
  obtain ⟨n, hn⟩ := t
  cases n with
  | zero => exact absurd rfl h0
  | succ n => exact (dif_pos h1).trans rfl

-- The result block after panel t: what the last panel stored.
def resAt1 : Vec F S4096x1 .f32 :=
  if h1 : t.val = 31 then View.canon (nodeRunLast V c t (by omega) h1 (accBefore1 V c t)).1 else View.canon []

theorem resAt1_L (h0 : ¬t.val = 0) (h1 : t.val = 31) : resAt1 V c t = View.canon (nodeRunLast V c t h0 h1 (accBefore1 V c t)).1 := dif_pos h1

end Panel

-- The invariant before panel n: the accumulator at what the panel before left, at anything before the first.
def PhiS1 (c : Dev nD) : (n : ℕ) → n ≤ cfg1.N → sProp 𝕄
  | 0, _ => Pipeline.ΦA spec1 c
  | n + 1, hn => PhiAcc1 c (owns (c : Thread nD τ) scM1_0 fullShare (accAt1 V c n hn))

theorem PhiS1_zero (c : Dev nD) (n : ℕ) (h : n ≤ cfg1.N) (hz : n = 0) : PhiS1 V c n h = Pipeline.ΦA spec1 c := by
  subst hz; rfl

theorem PhiS1_pos (c : Dev nD) (n : ℕ) (h : n ≤ cfg1.N) (hz : n ≠ 0) :
    PhiS1 V c n h = PhiAcc1 c (owns (c : Thread nD τ) scM1_0 fullShare (accAt1 V c (n - 1) (by omega))) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => resAt1 V c t
  Φ t := PhiS1 V c t.val (Nat.le_of_lt_succ t.isLt)
  q _ := fullShare
  owed _ := 0

section Panel

variable (c : Dev nD)

theorem A_eq1 (w : Fin cfg1.W) : (dat1 V c).A w = V c (Pipeline.arrRef spec1 w) := rfl
theorem q1 (w : Fin cfg1.W) : (dat1 V c).q w = fullShare := rfl
theorem owed1 (t : Fin (cfg1.N + 1)) : (dat1 V c).owed t = 0 := rfl
theorem recorded1 (t : Fin (cfg1.N + 1)) : (dat1 V c).recorded t = Set.univ := rfl

variable (t : Fin cfg1.N)

theorem after1_0 : (dat1 V c).after 0 t = iblk1 V c 0 t := rfl
theorem after1_1 : (dat1 V c).after 1 t = iblk1 V c 1 t := rfl
theorem after1_2 : (dat1 V c).after 2 t = iblk1 V c 2 t := rfl
theorem after1_3 : (dat1 V c).after 3 t = iblk1 V c 3 t := rfl
theorem after1_4 : (dat1 V c).after 4 t = iblk1 V c 4 t := rfl
theorem after1_5 : (dat1 V c).after 5 t = iblk1 V c 5 t := rfl
theorem after1_6 : (dat1 V c).after 6 t = iblk1 V c 6 t := rfl
theorem after1_7 : (dat1 V c).after 7 t = iblk1 V c 7 t := rfl
theorem after1_8 : (dat1 V c).after 8 t = iblk1 V c 8 t := rfl
theorem after1_9 : (dat1 V c).after 9 t = iblk1 V c 9 t := rfl
theorem after1_10 : (dat1 V c).after 10 t = iblk1 V c 10 t := rfl
theorem after1_11 : (dat1 V c).after 11 t = iblk1 V c 11 t := rfl
theorem after1_12 : (dat1 V c).after 12 t = iblk1 V c 12 t := rfl
theorem after1_13 : (dat1 V c).after 13 t = resAt1 V c t := rfl

theorem before1_in (w : Fin cfg1.W) (hw : w.val < 13) (d) : (dat1 V c).before w t d = (dat1 V c).after w t := by
  fin_cases w <;> first
    | exact absurd hw (by decide)
    | exact ((dat1 V c).before_in_eq_fetched _ rfl (fun _ => rfl) (fun _ _ _ => rfl) (fun _ => rfl) t d).trans rfl

theorem leaves1 (w : Fin cfg1.W) (h : cfg1.idle w (grid1.coords t) = false) :
    (dat1 V c).leavesExact w t = owns (c : Thread nD τ) ((cfg1.win w).stage (cfg1.slots t w)) fullShare ((dat1 V c).after w t) := by
  unfold Dat.leavesExact; rw [h]

def bodyPre1 : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

def bodyPost1 : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t
    ∗ (dat1 V c).leavesExact 12 t
    ∗ (dat1 V c).leavesExact 13 t)

set_option maxHeartbeats 4800000 in
-- The body at any panel: the panel index selects the run; the invariant hands it the accumulator the panel before left and takes it back at this panel's.
theorem sound_body1 : bodyPre1 V c t ⊢ wp frame (wpE (defs₀ (F := F)) Variants.none c none) Set.univ (bodyAt1 t) (fun _ => bodyPost1 V c t) := by
  unfold bodyPre1 bodyPost1
  simp only [before1_in V c t 0 (by decide), before1_in V c t 1 (by decide), before1_in V c t 2 (by decide), before1_in V c t 3 (by decide), before1_in V c t 4 (by decide), before1_in V c t 5 (by decide), before1_in V c t 6 (by decide), before1_in V c t 7 (by decide), before1_in V c t 8 (by decide), before1_in V c t 9 (by decide), before1_in V c t 10 (by decide), before1_in V c t 11 (by decide), before1_in V c t 12 (by decide)]
  rw [leaves1 V c t 0 (liveAt1_in 0 (by decide) t), leaves1 V c t 1 (liveAt1_in 1 (by decide) t), leaves1 V c t 2 (liveAt1_in 2 (by decide) t), leaves1 V c t 3 (liveAt1_in 3 (by decide) t), leaves1 V c t 4 (liveAt1_in 4 (by decide) t), leaves1 V c t 5 (liveAt1_in 5 (by decide) t), leaves1 V c t 6 (liveAt1_in 6 (by decide) t), leaves1 V c t 7 (liveAt1_in 7 (by decide) t), leaves1 V c t 8 (liveAt1_in 8 (by decide) t), leaves1 V c t 9 (liveAt1_in 9 (by decide) t), leaves1 V c t 10 (liveAt1_in 10 (by decide) t), leaves1 V c t 11 (liveAt1_in 11 (by decide) t), leaves1 V c t 12 (liveAt1_in 12 (by decide) t)]
  simp only [after1_0, after1_1, after1_2, after1_3, after1_4, after1_5, after1_6, after1_7, after1_8, after1_9, after1_10, after1_11, after1_12]
  rw [show (dat1 V c).owesAt () t.succ = (dat1 V c).owesAt () t.castSucc from rfl,
    show (dat1 V c).Φ t.succ = PhiAcc1 c (owns (c : Thread nD τ) scM1_0 fullShare (accAt1 V c t.val t.isLt)) from rfl,
    show (dat1 V c).Φ t.castSucc = PhiS1 V c t.val (Nat.le_of_lt t.isLt) from rfl]
  by_cases h0 : t.val = 0
  · have h1 : ¬t.val = 31 := by omega
    rw [Dat.leavesExact_idle _ 13 t (idleAt1_13 t h1).1 (idleAt1_13 t h1).2, accAt1_F V c t h0 h1, PhiS1_zero V c _ _ h0, PhiA1_eq]
    iintro ⟨⟨⟨HS0, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
    iapply ((nodeRunFirst V c t h0 h1).2 Set.univ _)
    unfold ins1
    iframe H0 H1 H2 H3 H4 H5 H6 H7 H8 H9 H10 H11 H12 HS0
    iintro ⟨⟨H0, H1, H2, H3, H4, H5, H6, H7, H8, H9, H10, H11, H12⟩, HS0⟩
    ihave HS0 := (owns_canon (c : Thread nD τ) fullShare (nodeRunFirst V c t h0 h1).1 (by sl_kernel_rfl)) $$ HS0
    unfold PhiAcc1; iframe
  · rw [PhiS1_pos V c _ _ h0]
    by_cases h1 : t.val = 31
    · rw [leaves1 V c t 13 (liveAt1_13 t h1), after1_13, resAt1_L V c t h0 h1, accAt1_L V c t h0 h1]
      iintro ⟨⟨⟨HS0, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
      iapply ((nodeRunLast V c t h0 h1 (accBefore1 V c t)).2.2 Set.univ _)
      unfold ins1
      iframe H0 H1 H2 H3 H4 H5 H6 H7 H8 H9 H10 H11 H12 HS0
      isplitl [H13]
      · icases H13 with ⟨%d13, H13⟩; iexists _; iexact H13
      iintro ⟨⟨H0, H1, H2, H3, H4, H5, H6, H7, H8, H9, H10, H11, H12⟩, H13, HS0⟩
      ihave H13 := (owns_canon (c : Thread nD τ) fullShare (nodeRunLast V c t h0 h1 (accBefore1 V c t)).1 (by sl_kernel_rfl)) $$ H13
      ihave HS0 := (owns_canon (c : Thread nD τ) fullShare (nodeRunLast V c t h0 h1 (accBefore1 V c t)).2.1 (by sl_kernel_rfl)) $$ HS0
      unfold PhiAcc1; iframe
    · rw [Dat.leavesExact_idle _ 13 t (idleAt1_13 t h1).1 (idleAt1_13 t h1).2, accAt1_M V c t h0 h1]
      iintro ⟨⟨⟨HS0, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
      iapply ((nodeRunMid V c t h0 h1 (accBefore1 V c t)).2 Set.univ _)
      unfold ins1
      iframe H0 H1 H2 H3 H4 H5 H6 H7 H8 H9 H10 H11 H12 HS0
      iintro ⟨⟨H0, H1, H2, H3, H4, H5, H6, H7, H8, H9, H10, H11, H12⟩, HS0⟩
      ihave HS0 := (owns_canon (c : Thread nD τ) fullShare (nodeRunMid V c t h0 h1 (accBefore1 V c t)).1 (by sl_kernel_rfl)) $$ HS0
      unfold PhiAcc1; iframe

theorem body_obligation1 : BodyObligation (dat1 (F := F) V c) (defs₀ (F := F)) Variants.none () Set.univ := fun t => by
  rw [bigSep_W1, bigSep_W1]
  exact sound_body1 V c t

theorem hin1 : (Pipeline.ΦA spec1 c : sProp 𝕄) ⊢ (dat1 V c).Φ 0 := .rfl

theorem hout1 : (dat1 V c).Φ (Fin.last cfg1.N) ⊢ (Pipeline.ΦA spec1 c : sProp 𝕄) := by
  rw [show (dat1 V c).Φ (Fin.last cfg1.N) = PhiS1 V c cfg1.N (Nat.le_refl _) from rfl,
    PhiS1_pos V c _ _ (by rw [show cfg1.N = 32 from N_1]; decide), PhiA1_eq]
  unfold PhiAcc1
  iintro ⟨⟨HS0, Hb⟩, Hg⟩
  iframe
  iexists _; iexact HS0

end Panel

end Cert.KernelIdeal.Hand

end
-- ==== Proof.Segments.lean ====
import proofs.«110987_g5892695130345_cont_sun_m_578_16_alg».proof.Proof.Gen.KernelIdeal.Regions
import proofs.«110987_g5892695130345_cont_sun_m_578_16_alg».proof.Proof.EdgePassData
import proofs.«110987_g5892695130345_cont_sun_m_578_16_alg».proof.Proof.NodePassFrame
import proofs.«110987_g5892695130345_cont_sun_m_578_16_alg».proof.Proof.LibRegionHeld

noncomputable section

namespace Cert.KernelIdeal.Hand

open Cert.KernelIdeal Cert.KernelIdeal.Gen
open Idealize.ShloMosaic Idealize.ShloMosaic.TcCoe Idealize.ShloMosaic.Rounds
open Idealize.SL Idealize.SL.BI Idealize.SL.BI.BIBase Idealize.SL.ProofMode
open scoped Idealize.SL.BI

variable {F : FTy → Type} [FloatOps F]
variable (m : (ℓ : Loc nD τ sig) → Buf (Elt F) ℓ) (ρ : Dev nD → PrngReg)

local notation "𝕄" => MT nD τ sig Unit (Elt F) ℕ (UR sig nD τ) ℕ

abbrev ent0 : (c : Dev nD) → (b : Ref sig .tc) → Buf (Elt F) ((c : Thread nD τ).loc b) := fun c b => V1 m c b
def out0 (c : Dev nD) : Buf (Elt F) ((c : Thread nD τ).loc main_v12) := (dat0 (ent0 m) c).arrAt 7 cfg0.N
abbrev mid (c : Dev nD) : Valuation τ sig (Elt F) :=
  StableHlo.after hostOps1 (Function.update (V1 m c) main_v12 (out0 m c))
abbrev ent1 : (c : Dev nD) → (b : Ref sig .tc) → Buf (Elt F) ((c : Thread nD τ).loc b) := fun c b => mid m c b
def out1 (c : Dev nD) : Buf (Elt F) ((c : Thread nD τ).loc main_v39) := (dat1 (ent1 m) c).arrAt 13 cfg1.N

def outs : Outs (F := F) := fun _ r c =>
  Function.update (Function.update (fun r : Ref sig .tc => m ((c : Thread nD τ).loc r)) main_v12 (out0 m c)) main_v39 (out1 m c) r

theorem outs_v12 (c : Dev nD) : outs m 2 main_v12 c = out0 m c := by
  unfold outs; rw [Function.update_of_ne (by decide), Function.update_self]
theorem outs_v39 (c : Dev nD) : outs m 4 main_v39 c = out1 m c := by
  unfold outs; rw [Function.update_self]

theorem V3_eq (c : Dev nD) : V3 m (outs m) c = mid m c := by
  show StableHlo.after hostOps1 (Function.update (V1 m c) main_v12 (outs m 2 main_v12 c)) = _
  rw [outs_v12]

def pdats : (p : Fin 2) → (c : Dev nD) → Pipeline.Dat τ (Elt F) Unit ℕ (UR sig nD τ) ℕ (Pipeline.pin (pcfgs (F := F)) adm p) c
  | ⟨0, _⟩ => fun c => dat0 (ent0 m) c
  | ⟨1, _⟩ => fun c => dat1 (ent1 m) c

abbrev L : GSem nD τ sig → Finset Unit := fun _ => ∅
abbrev lv : GSem nD τ sig → Unit → ℕ := fun _ _ => 0

def reg0 : Pipeline.RegionSeg (pcfgs (F := F)) adm (pdats m) () defs₀ Variants.none L lv 0 :=
  Pipeline.regionHeld cfgs (pdats m) defs₀ 0 launch0 7 (by decide) (V1 m) (V2 m (outs m))
    (fun c => congrArg (Function.update (V1 m c) main_v12) (outs_v12 m c))
    (body_obligation0 _) (q0 _) (owed0 _) (recorded0 _ · 0) (A_eq0 _) (hin0 _) (hout0 _)

def reg1 : Pipeline.RegionSeg (pcfgs (F := F)) adm (pdats m) () defs₀ Variants.none L lv 1 :=
  Pipeline.regionHeld cfgs (pdats m) defs₀ 1 launch1 13 (by decide) (V3 m (outs m)) (V4 m (outs m))
    (fun c => congrArg (Function.update (V3 m (outs m) c) main_v39) (outs_v39 m c))
    (body_obligation1 _) (q1 _) (owed1 _) (recorded1 _ · 0) (fun c w => (A_eq1 _ c w).trans (congrFun (V3_eq m c).symm _)) (hin1 _) (hout1 _)

abbrev tok₀ := initOf (Pipeline.cells (nD := nD) (τ := τ) cfgs cellOf_inj) (Pipeline.launchToks cfgs cellOf_inj)

theorem launchElem : (ownU tok₀ : sProp 𝕄) ⊢ |={Set.univ}=> iprop(BI.own (emb₁ tok₀) ∗ bigSep Finset.univ fun _ : Dev nD => (BI.emp : sProp 𝕄)) := by
  rw [BI.bigSep_emp_const]; iintro Hu; imodintro; isplitl [Hu]
  · iapply (show (ownU tok₀ : sProp 𝕄) ⊢ BI.own (emb₁ tok₀) from .rfl); iexact Hu
  iempintro

abbrev args : List (Ref sig .tc) :=
  [main_arg0, main_arg1, main_arg2, main_arg3, main_arg4, main_arg5, main_arg6, main_arg7, main_arg8, main_arg9, main_arg10, main_arg11, main_arg12]
-- Every argument array holds what it was launched with.
abbrev kept (s : (ℓ : Loc nD τ sig) → Buf (Elt F) ℓ) (c : Dev nD) : Prop :=
  args.Forall fun r => s ((c.tc : Thread nD τ).loc r) = m ((c.tc : Thread nD τ).loc r)

theorem frame : θ_run defs (onTc (τ := τ) (main (F := F))) ⟨m, fun _ => 0, ρ⟩ (fun r => ∀ c : Dev nD, kept m r.2.mem c) :=
  frame_cond m emb₁ () Variants.none L lv (fun _ _ => rfl) ρ (outs m) (pdats m) 0 (fun _ => BI.emp) tok₀ launchElem (fun _ c => Pipeline.beside c)
    (Pipeline.initEach L lv fun c => by
      iintro ⟨⟨-, HO, -, Hp, -⟩, -⟩; imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

end Cert.KernelIdeal.Hand

end
-- ==== Proof.PassFolds.lean ====
import proofs.«110987_g5892695130345_cont_sun_m_578_16_alg».proof.Proof.Gen.KernelIdeal.Skeleton
import Idealize.ShloMosaic.Lib.ValueIdx

noncomputable section

namespace Cert.KernelIdeal.Hand

open Idealize.ShloMosaic Cert.KernelIdeal Cert.KernelIdeal.Gen

variable {F : FTy → Type} [FloatOps F]

def panelA (X : Vec F S8192x4096 .f32) (t : Fin 32) : Vec F S256x4096 .f32 :=
  fun y => X (ValueIdx.ix2 (⟨256 * t.val + (y 0).val, by have h : (y 0).val < 256 := (y 0).isLt; have := t.isLt; omega⟩ : Fin 8192) ((y 1 : Fin 4096)))

def panelN (X : Vec F S8192x64 .f32) (t : Fin 32) : Vec F S256x64 .f32 :=
  fun y => X (ValueIdx.ix2 (⟨256 * t.val + (y 0).val, by have h : (y 0).val < 256 := (y 0).isLt; have := t.isLt; omega⟩ : Fin 8192) ((y 1 : Fin 64)))

def edgeAcc (Ab : Fin 32 → Vec F S256x4096 .f32) (Nb : Fin 32 → Vec F S256x64 .f32) : (n : ℕ) → n < 32 → Vec F S4096x65 .f32
  | 0, h => k0_pay2 (Ab ⟨0, h⟩) (Nb ⟨0, h⟩) (k0_pay1 (F := F))
  | n + 1, h => k0_pay2 (Ab ⟨n + 1, h⟩) (Nb ⟨n + 1, h⟩) (edgeAcc Ab Nb n (Nat.lt_of_succ_lt h))

def edgeOut (acc : Vec F S4096x65 .f32) (e0 : Vec F S4096x64 .f32) (wt : Vec F S128x64 .f32) (b g s : Vec F S1x64 .f32) : Vec F S4096x65 .f32 :=
  k0_pay3 e0 (k0_pay4 g) (k0_pay5 s) (k0_pay6 acc e0 wt b) (k0_pay7 acc e0 wt b)

def nodeStep (Ab : Vec F S256x4096 .f32) (e1 : Vec F S4096x65 .f32) (Nb : Vec F S256x64 .f32) (wt : Vec F S128x64 .f32) (b g s : Vec F S1x64 .f32)
    (prev : Vec F S4096x65 .f32) : Vec F S4096x65 .f32 :=
  k1_pay1 (k1_pay9 Ab) Nb (k1_pay10 Ab e1 Nb wt b) (k1_pay11 g) (k1_pay12 s) (k1_pay13 Ab e1 Nb wt b) prev

def nodeAcc (Ab : Fin 32 → Vec F S256x4096 .f32) (Nb : Fin 32 → Vec F S256x64 .f32) (e1 : Vec F S4096x65 .f32) (wt : Vec F S128x64 .f32) (b g s : Vec F S1x64 .f32) :
    (n : ℕ) → n < 32 → Vec F S4096x65 .f32
  | 0, h => nodeStep (Ab ⟨0, h⟩) e1 (Nb ⟨0, h⟩) wt b g s (k1_pay8 (F := F))
  | n + 1, h => nodeStep (Ab ⟨n + 1, h⟩) e1 (Nb ⟨n + 1, h⟩) wt b g s (nodeAcc Ab Nb e1 wt b g s n (Nat.lt_of_succ_lt h))

def probOut (acc : Vec F S4096x65 .f32) (e1 : Vec F S4096x65 .f32) (wt : Vec F S128x64 .f32) (b g s : Vec F S1x64 .f32) (dw : Vec F S64x1 .f32) (db : Vec F S1x1 .f32) :
    Vec F S4096x1 .f32 :=
  k1_pay2 (k1_pay3 e1) (k1_pay4 g) (k1_pay5 s) (k1_pay6 acc e1 wt b) (k1_pay7 acc e1 wt b) dw db

def hostWt0 (W : Vec F S2x64x128 .f32) : Vec F S128x64 .f32 :=
  transpose S128x64 [1, 0] (shapeCast S64x128 (extractStridedSlice S1x64x128 ![0, 0, 0] W slices_S2x64x128_S1x64x128_0_0_0) shapeCasts_S1x64x128_S64x128) transposes_S64x128_S128x64_1_0
def hostWt1 (W : Vec F S2x64x128 .f32) : Vec F S128x64 .f32 :=
  transpose S128x64 [1, 0] (shapeCast S64x128 (extractStridedSlice S1x64x128 ![1, 0, 0] W slices_S2x64x128_S1x64x128_1_0_0) shapeCasts_S1x64x128_S64x128) transposes_S64x128_S128x64_1_0

def hostRow0 (p : Vec F S2x64 .f32) : Vec F S1x64 .f32 :=
  shapeCast S1x64 (shapeCast S64 (extractStridedSlice S1x64 ![0, 0] p slices_S2x64_S1x64_0_0) shapeCasts_S1x64_S64) shapeCasts_S64_S1x64
def hostRow1 (p : Vec F S2x64 .f32) : Vec F S1x64 .f32 :=
  shapeCast S1x64 (shapeCast S64 (extractStridedSlice S1x64 ![1, 0] p slices_S2x64_S1x64_1_0) shapeCasts_S1x64_S64) shapeCasts_S64_S1x64

def edgePass (A : Vec F S8192x4096 .f32) (n0 : Vec F S8192x64 .f32) (e0 : Vec F S4096x64 .f32) (eW : Vec F S2x64x128 .f32) (eb eg es : Vec F S2x64 .f32) : Vec F S4096x65 .f32 :=
  edgeOut (edgeAcc (panelA A) (panelN n0) 31 (by decide)) e0 (hostWt0 eW) (hostRow0 eb) (hostRow0 eg) (hostRow0 es)

def nodePass (A : Vec F S8192x4096 .f32) (n0 : Vec F S8192x64 .f32) (e1 : Vec F S4096x65 .f32) (eW : Vec F S2x64x128 .f32) (eb eg es : Vec F S2x64 .f32)
    (nW : Vec F S2x64x128 .f32) (nb ng ns : Vec F S2x64 .f32) (dW : Vec F S1x64 .f32) (db : Vec F S1 .f32) : Vec F S4096x1 .f32 :=
  probOut (nodeAcc (panelA A) (panelN n0) e1 (hostWt0 nW) (hostRow0 nb) (hostRow0 ng) (hostRow0 ns) 31 (by decide)) e1
    (hostWt1 eW) (hostRow1 eb) (hostRow1 eg) (hostRow1 es) (shapeCast S64x1 dW shapeCasts_S1x64_S64x1) (shapeCast S1x1 db shapeCasts_S1_S1x1)

def kerOut (A : Vec F S8192x4096 .f32) (n0 : Vec F S8192x64 .f32) (e0 : Vec F S4096x64 .f32) (eW : Vec F S2x64x128 .f32) (eb eg es : Vec F S2x64 .f32)
    (nW : Vec F S2x64x128 .f32) (nb ng ns : Vec F S2x64 .f32) (dW : Vec F S1x64 .f32) (db : Vec F S1 .f32) : Vec F S4096 .f32 :=
  shapeCast S4096 (nodePass A n0 (edgePass A n0 e0 eW eb eg es) eW eb eg es nW nb ng ns dW db) shapeCasts_S4096x1_S4096

end Cert.KernelIdeal.Hand

end
-- ==== Proof.EdgePassValue.lean ====
import proofs.«110987_g5892695130345_cont_sun_m_578_16_alg».proof.Proof.EdgePassData
import proofs.«110987_g5892695130345_cont_sun_m_578_16_alg».proof.Proof.PassFolds
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (V : (c : Dev nD) → (b : Ref sig .tc) → Buf (Elt F) ((c : Thread nD τ).loc b))

theorem zeroOff0 : (![0, 0] : Fin 2 → Nat) = fun _ => 0 := funext fun a => by fin_cases a <;> rfl

section Panel

variable (c : Dev nD) (t : Fin cfg0.N)

theorem accF_eq (h0 : t.val = 0) (h1 : ¬t.val = 31) :
    View.canon (runF V c t h0 h1).1 = k0_pay2 (iblk0 V c 0 t) (iblk0 V c 1 t) (k0_pay1 (F := F)) := by
  unfold runF kernelRun0_First mems0
  dsimp only
  sl_unfold_words
  rw [View.canon_cons_unit_zero (S := S4096x65) zeroOff0, View.readCov_unit_zero (S := S4096x65) _ zeroOff0]
  simp only [View.readAt_eq_ld, (hs0 0 t).read_unread, (hs0 1 t).read_unread, View.ld_unit_zero (S := S256x4096) zeroOff0, View.ld_unit_zero (S := S256x64) zeroOff0]

theorem accM_eq (h0 : ¬t.val = 0) (h1 : ¬t.val = 31) (xs0 : Vec F S4096x65 .f32) :
    View.canon (runM V c t h0 h1 xs0).1 = k0_pay2 (iblk0 V c 0 t) (iblk0 V c 1 t) xs0 := by
  unfold runM kernelRun0_Mid mems0
  dsimp only
  sl_unfold_words
  rw [View.canon_unit_zero (S := S4096x65) zeroOff0]
  simp only [View.readAt_eq_ld, (hs0 0 t).read_unread, (hs0 1 t).read_unread, (Memref.isWhole_whole _).read_unread, View.ld_unit_zero (S := S256x4096) zeroOff0, View.ld_unit_zero (S := S256x64) zeroOff0, View.ld_unit_zero (S := S4096x65) zeroOff0]

theorem accL_eq (h0 : ¬t.val = 0) (h1 : t.val = 31) (xs0 : Vec F S4096x65 .f32) :
    View.canon (runL V c t h0 h1 xs0).2.1 = k0_pay2 (iblk0 V c 0 t) (iblk0 V c 1 t) xs0 := by
  unfold runL kernelRun0_Last mems0
  dsimp only
  sl_unfold_words
  rw [View.canon_unit_zero (S := S4096x65) zeroOff0]
  simp only [View.readAt_eq_ld, (hs0 0 t).read_unread, (hs0 1 t).read_unread, (Memref.isWhole_whole _).read_unread, View.ld_unit_zero (S := S256x4096) zeroOff0, View.ld_unit_zero (S := S256x64) zeroOff0, View.ld_unit_zero (S := S4096x65) zeroOff0]

theorem resL_eq (h0 : ¬t.val = 0) (h1 : t.val = 31) (xs0 : Vec F S4096x65 .f32) :
    View.canon (runL V c t h0 h1 xs0).1
      = edgeOut (k0_pay2 (iblk0 V c 0 t) (iblk0 V c 1 t) xs0) (iblk0 V c 2 t) (iblk0 V c 3 t) (iblk0 V c 4 t) (iblk0 V c 5 t) (iblk0 V c 6 t) := by
  unfold edgeOut
  unfold runL kernelRun0_Last mems0
  dsimp only
  sl_unfold_words
  rw [View.canon_unit_zero (S := S4096x65) zeroOff0]
  simp only [View.readAt_eq_ld, (hs0 0 t).read_unread, (hs0 1 t).read_unread, (hs0 2 t).read_unread, (hs0 3 t).read_unread, (hs0 4 t).read_unread, (hs0 5 t).read_unread, (hs0 6 t).read_unread, (Memref.isWhole_whole _).read_unread, View.ld_unit_zero (S := S256x4096) zeroOff0, View.ld_unit_zero (S := S256x64) zeroOff0, View.ld_unit_zero (S := S4096x64) zeroOff0, View.ld_unit_zero (S := S128x64) zeroOff0, View.ld_unit_zero (S := S1x64) zeroOff0, View.ld_unit_zero (S := S4096x65) zeroOff0, View.readCov_unit_zero (S := S4096x65) _ zeroOff0]

theorem blkA_eq : (iblk0 V c 0 t : Vec F S256x4096 .f32) = panelA (V c main_arg0) ⟨t.val, lt_of_lt_of_eq t.isLt N_0⟩ := by
  have hi : win0_0.index t 0 = t.val := (by decide +kernel : ∀ t : Fin grid0.N, win0_0.index t 0 = t.val) t
  funext j
  unfold iblk0 panelA
  rw [View.read_apply]
  show V c main_arg0 _ = V c main_arg0 _
  congr 1
  funext a
  apply Fin.ext
  match a with
  | ⟨0, _⟩ => show win0_0.index t 0 * 256 + 1 * (j 0).val = 256 * t.val + (j 0).val; rw [hi]; omega
  | ⟨1, _⟩ => show 0 * 4096 + 1 * (j 1).val = (j 1).val; omega

theorem blkN_eq : (iblk0 V c 1 t : Vec F S256x64 .f32) = panelN (V c main_arg1) ⟨t.val, lt_of_lt_of_eq t.isLt N_0⟩ := by
  have hi : win0_1.index t 0 = t.val := (by decide +kernel : ∀ t : Fin grid0.N, win0_1.index t 0 = t.val) t
  funext j
  unfold iblk0 panelN
  rw [View.read_apply]
  show V c main_arg1 _ = V c main_arg1 _
  congr 1
  funext a
  apply Fin.ext
  match a with
  | ⟨0, _⟩ => show win0_1.index t 0 * 256 + 1 * (j 0).val = 256 * t.val + (j 0).val; rw [hi]; omega
  | ⟨1, _⟩ => show 0 * 64 + 1 * (j 1).val = (j 1).val; omega

end Panel

/-- Induction on `n`: each control case adds one `k0_pay2` step, which is `edgeAcc`'s recursion. -/
theorem accAt0_eq (c : Dev nD) : ∀ (n : ℕ) (h : n < cfg0.N),
    accAt0 V c n h = edgeAcc (panelA (V c main_arg0)) (panelN (V c main_arg1)) n (lt_of_lt_of_eq h N_0)
  | 0, h => by
    rw [accAt0_F V c ⟨0, h⟩ rfl (show ¬(0 : ℕ) = 31 by decide), accF_eq, blkA_eq, blkN_eq]
    rfl
  | n + 1, h => by
    by_cases h1 : n + 1 = 31
    · rw [accAt0_L V c ⟨n + 1, h⟩ (Nat.succ_ne_zero n) h1, accL_eq, blkA_eq, blkN_eq]
      exact congrArg (k0_pay2 _ _) (accAt0_eq c n (Nat.lt_of_succ_lt h))
    · rw [accAt0_M V c ⟨n + 1, h⟩ (Nat.succ_ne_zero n) h1, accM_eq, blkA_eq, blkN_eq]
      exact congrArg (k0_pay2 _ _) (accAt0_eq c n (Nat.lt_of_succ_lt h))

abbrev result0 (c : Dev nD) : Vec F S4096x65 .f32 :=
  edgeOut (edgeAcc (panelA (V c main_arg0)) (panelN (V c main_arg1)) 31 (by decide)) (V c main_arg2) (V c main_v2) (V c main_v5) (V c main_v8) (V c main_v11)

abbrev t0_31 : Fin cfg0.N := ⟨31, by rw [show cfg0.N = 32 from N_0]; decide⟩

theorem resAt0_last (c : Dev nD) : resAt0 V c t0_31 = result0 V c := by
  rw [resAt0_L V c t0_31 (by decide) rfl, resL_eq, blkA_eq, blkN_eq,
    show (iblk0 V c 2 t0_31 : Vec F S4096x64 .f32) = V c main_arg2 from Memref.read_access_unit_zero (Elt F) main_arg2 (funext fun a => by fin_cases a <;> rfl) _ _,
    show (iblk0 V c 3 t0_31 : Vec F S128x64 .f32) = V c main_v2 from Memref.read_access_unit_zero (Elt F) main_v2 (funext fun a => by fin_cases a <;> rfl) _ _,
    show (iblk0 V c 4 t0_31 : Vec F S1x64 .f32) = V c main_v5 from Memref.read_access_unit_zero (Elt F) main_v5 (funext fun a => by fin_cases a <;> rfl) _ _,
    show (iblk0 V c 5 t0_31 : Vec F S1x64 .f32) = V c main_v8 from Memref.read_access_unit_zero (Elt F) main_v8 (funext fun a => by fin_cases a <;> rfl) _ _,
    show (iblk0 V c 6 t0_31 : Vec F S1x64 .f32) = V c main_v11 from Memref.read_access_unit_zero (Elt F) main_v11 (funext fun a => by fin_cases a <;> rfl) _ _]
  exact congrArg (fun x => edgeOut (k0_pay2 _ _ x) _ _ _ _ _) (accAt0_eq V c 30 _)

theorem flushed0_eq (c : Dev nD) (t : Fin cfg0.N) (hf : (cfg0.win 7).flush t = true) :
    (dat0 V c).flushed 7 t = ((cfg0.win 7).blk t).view.read (Elt F) (result0 V c) := by
  have hN : cfg0.N = 32 := N_0
  obtain rfl : t = t0_31 := Fin.ext (by have := (flush0_7 t).mp hf; have := t.isLt; show t.val = 31; omega)
  show (cfg0.win 7).cut (grid0.coords t0_31) ((dat0 V c).after 7 t0_31) = _
  rw [after0_7, resAt0_last]
  exact (Memref.read_access_unit_zero (Elt F) main_v12 (funext fun a => by fin_cases a <;> rfl) _ (result0 V c)).symm

theorem final0 (c : Dev nD) : (dat0 V c).arrAt 7 cfg0.N
    = edgeOut (edgeAcc (panelA (V c main_arg0)) (panelN (V c main_arg1)) 31 (by decide)) (V c main_arg2) (V c main_v2) (V c main_v5) (V c main_v8) (V c main_v11) :=
  (dat0 V c).arrAt_eq_of_cover 7 (result0 V c) (flushed0_eq V c) fun i =>
    ⟨t0_31, (flush0_7 t0_31).mpr rfl, by
      show i ∈ ((View.whole main_v12).slice (win0_7.rect t0_31)).set
      rw [View.set_slice_whole, Rect.mem_set_unit]
      intro a
      have hx : win0_7.xsize (grid0.coords t0_31) 0 = 4096 ∧ win0_7.xsize (grid0.coords t0_31) 1 = 65 := by decide +kernel
      match a with
      | ⟨0, _⟩ => exact ⟨Nat.zero_le _, lt_of_lt_of_eq (i 0).isLt hx.1.symm⟩
      | ⟨1, _⟩ => exact ⟨Nat.zero_le _, lt_of_lt_of_eq (i 1).isLt hx.2.symm⟩⟩

end Cert.KernelIdeal.Hand

end
-- ==== Proof.NodePassBlocks.lean ====
import proofs.«110987_g5892695130345_cont_sun_m_578_16_alg».proof.Proof.NodePassShared
import proofs.«110987_g5892695130345_cont_sun_m_578_16_alg».proof.Proof.PassFolds

noncomputable section

namespace Cert.KernelIdeal.Hand

open Cert.KernelIdeal Cert.KernelIdeal.Gen
open Idealize.ShloMosaic Idealize.ShloMosaic.TcCoe

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl

theorem idx1_0 : ∀ t : Fin cfg1.N, win1_0.index t 0 = t.val :=
  (by decide +kernel : ∀ t : Fin grid1.N, win1_0.index t 0 = t.val)
theorem idx1_1 : ∀ t : Fin cfg1.N, win1_1.index t 0 = t.val :=
  (by decide +kernel : ∀ t : Fin grid1.N, win1_1.index t 0 = t.val)

theorem iblk1_0_eq (c : Dev nD) (t : Fin cfg1.N) (h' : t.val < 32) :
    (iblk1 V c 0 t : Vec F S256x4096 .f32) = panelA (V c main_arg0) ⟨t.val, h'⟩ := by
  funext j
  unfold iblk1 panelA
  rw [View.read_apply]
  show V c main_arg0 _ = V c main_arg0 _
  congr 1
  funext a
  apply Fin.ext
  match a with
  | ⟨0, _⟩ => show win1_0.index t 0 * 256 + 1 * (j 0).val = 256 * t.val + (j 0).val; rw [idx1_0 t]; omega
  | ⟨1, _⟩ => show 0 * 4096 + 1 * (j 1).val = (j 1).val; omega

theorem iblk1_1_eq (c : Dev nD) (t : Fin cfg1.N) (h' : t.val < 32) :
    (iblk1 V c 1 t : Vec F S256x64 .f32) = panelN (V c main_arg1) ⟨t.val, h'⟩ := by
  funext j
  unfold iblk1 panelN
  rw [View.read_apply]
  show V c main_arg1 _ = V c main_arg1 _
  congr 1
  funext a
  apply Fin.ext
  match a with
  | ⟨0, _⟩ => show win1_1.index t 0 * 256 + 1 * (j 0).val = 256 * t.val + (j 0).val; rw [idx1_1 t]; omega
  | ⟨1, _⟩ => show 0 * 64 + 1 * (j 1).val = (j 1).val; omega

theorem iblk1_2_eq (c : Dev nD) (t : Fin cfg1.N) : (iblk1 V c 2 t : Vec F S4096x65 .f32) = V c main_v12 :=
  Memref.read_access_unit_zero (Elt F) main_v12 (funext fun a => by fin_cases a <;> rfl) _ _
theorem iblk1_3_eq (c : Dev nD) (t : Fin cfg1.N) : (iblk1 V c 3 t : Vec F S128x64 .f32) = V c main_v15 :=
  Memref.read_access_unit_zero (Elt F) main_v15 (funext fun a => by fin_cases a <;> rfl) _ _
theorem iblk1_4_eq (c : Dev nD) (t : Fin cfg1.N) : (iblk1 V c 4 t : Vec F S1x64 .f32) = V c main_v18 :=
  Memref.read_access_unit_zero (Elt F) main_v18 (funext fun a => by fin_cases a <;> rfl) _ _
theorem iblk1_5_eq (c : Dev nD) (t : Fin cfg1.N) : (iblk1 V c 5 t : Vec F S1x64 .f32) = V c main_v21 :=
  Memref.read_access_unit_zero (Elt F) main_v21 (funext fun a => by fin_cases a <;> rfl) _ _
theorem iblk1_6_eq (c : Dev nD) (t : Fin cfg1.N) : (iblk1 V c 6 t : Vec F S1x64 .f32) = V c main_v24 :=
  Memref.read_access_unit_zero (Elt F) main_v24 (funext fun a => by fin_cases a <;> rfl) _ _
theorem iblk1_7_eq (c : Dev nD) (t : Fin cfg1.N) : (iblk1 V c 7 t : Vec F S128x64 .f32) = V c main_v27 :=
  Memref.read_access_unit_zero (Elt F) main_v27 (funext fun a => by fin_cases a <;> rfl) _ _
theorem iblk1_8_eq (c : Dev nD) (t : Fin cfg1.N) : (iblk1 V c 8 t : Vec F S1x64 .f32) = V c main_v30 :=
  Memref.read_access_unit_zero (Elt F) main_v30 (funext fun a => by fin_cases a <;> rfl) _ _
theorem iblk1_9_eq (c : Dev nD) (t : Fin cfg1.N) : (iblk1 V c 9 t : Vec F S1x64 .f32) = V c main_v33 :=
  Memref.read_access_unit_zero (Elt F) main_v33 (funext fun a => by fin_cases a <;> rfl) _ _
theorem iblk1_10_eq (c : Dev nD) (t : Fin cfg1.N) : (iblk1 V c 10 t : Vec F S1x64 .f32) = V c main_v36 :=
  Memref.read_access_unit_zero (Elt F) main_v36 (funext fun a => by fin_cases a <;> rfl) _ _
theorem iblk1_11_eq (c : Dev nD) (t : Fin cfg1.N) : (iblk1 V c 11 t : Vec F S64x1 .f32) = V c main_v37 :=
  Memref.read_access_unit_zero (Elt F) main_v37 (funext fun a => by fin_cases a <;> rfl) _ _
theorem iblk1_12_eq (c : Dev nD) (t : Fin cfg1.N) : (iblk1 V c 12 t : Vec F S1x1 .f32) = V c main_v38 :=
  Memref.read_access_unit_zero (Elt F) main_v38 (funext fun a => by fin_cases a <;> rfl) _ _

end Cert.KernelIdeal.Hand

end
-- ==== Proof.NodePassCover.lean ====
import proofs.«110987_g5892695130345_cont_sun_m_578_16_alg».proof.Proof.NodePassShared

noncomputable section

namespace Cert.KernelIdeal.Hand

open Cert.KernelIdeal Cert.KernelIdeal.Gen
open Idealize.ShloMosaic Idealize.ShloMosaic.TcCoe

variable {F : FTy → Type} [FloatOps F]

abbrev tLast1 : Fin cfg1.N := ⟨31, by rw [show cfg1.N = 32 from N_1]; decide⟩

theorem readBlk1_13 (c : Dev nD) (t : Fin cfg1.N) (G : Buf (Elt F) ((c : Thread nD τ).loc main_v39)) :
    (((cfg1.win 13).blk t).view.read (Elt F) G : Vec F S4096x1 .f32) = G :=
  Memref.read_access_unit_zero (Elt F) main_v39 (funext fun a => by fin_cases a <;> rfl) _ G

theorem coverLast1_13 (c : Dev nD) (i : ((cfg1.win 13).arr.view.loc (c.tc : Thread nD τ)).2.ty.Idx) :
    ∃ t : Fin cfg1.N, (cfg1.win 13).flush t = true ∧ i ∈ ((cfg1.win 13).blk t).view.set :=
  ⟨tLast1, (flush1_13 tLast1).mpr rfl, by
    show i ∈ ((View.whole main_v39).slice (win1_13.rect tLast1)).set
    rw [View.set_slice_whole, Rect.mem_set_unit]
    intro a
    have hx : win1_13.xsize (grid1.coords tLast1) 0 = 4096 ∧ win1_13.xsize (grid1.coords tLast1) 1 = 1 := by decide +kernel
    match a with
    | ⟨0, _⟩ => exact ⟨Nat.zero_le _, lt_of_lt_of_eq (i 0).isLt hx.1.symm⟩
    | ⟨1, _⟩ => exact ⟨Nat.zero_le _, lt_of_lt_of_eq (i 1).isLt hx.2.symm⟩⟩

end Cert.KernelIdeal.Hand

end
-- ==== Proof.NodePassValue.lean ====
import proofs.«110987_g5892695130345_cont_sun_m_578_16_alg».proof.Proof.NodePassFrame
import proofs.«110987_g5892695130345_cont_sun_m_578_16_alg».proof.Proof.NodePassBlocks
import proofs.«110987_g5892695130345_cont_sun_m_578_16_alg».proof.Proof.NodePassCover
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- A whole buffer reads its raw contents back.
theorem read_acc (xs0 : Vec F S4096x65 .f32) : View.read (Elt F) (View.whole cc1_scratch0) ((Memref.isWhole_whole cc1_scratch0).unread xs0) = xs0 :=
  (Memref.isWhole_whole cc1_scratch0).read_unread xs0

section Panel

variable (c : Dev nD) (t : Fin cfg1.N)

-- Each run's stored pieces, read back, are one panel step over the accumulator found (zero at the first point);
theorem stepF (h0 : t.val = 0) (h1 : ¬t.val = 31) : View.canon (nodeRunFirst V c t h0 h1).1 = nodeStep (iblk1 V c 0 t) (iblk1 V c 2 t) (iblk1 V c 1 t) (iblk1 V c 3 t) (iblk1 V c 4 t) (iblk1 V c 5 t) (iblk1 V c 6 t) (k1_pay8 (F := F)) := by
  unfold nodeRunFirst
  dsimp only
  sl_unfold_words
  rw [View.canon_cons_unit_zero (S := S4096x65) hz2, View.readCov_unit_zero (S := S4096x65) _ hz2]
  unfold nodeStep
  simp only [View.readAt_eq_ld, Memref.IsWhole.read_unread, read_acc, View.ld_unit_zero (S := S256x4096) hz2, View.ld_unit_zero (S := S256x64) hz2, View.ld_unit_zero (S := S4096x65) hz2, View.ld_unit_zero (S := S128x64) hz2, View.ld_unit_zero (S := S1x64) hz2, View.ld_unit_zero (S := S64x1) hz2, View.ld_unit_zero (S := S1x1) hz2, View.ld_unit_zero (S := S4096x1) hz2]

theorem stepM (h0 : ¬t.val = 0) (h1 : ¬t.val = 31) (xs0 : Vec F S4096x65 .f32) : View.canon (nodeRunMid V c t h0 h1 xs0).1 = nodeStep (iblk1 V c 0 t) (iblk1 V c 2 t) (iblk1 V c 1 t) (iblk1 V c 3 t) (iblk1 V c 4 t) (iblk1 V c 5 t) (iblk1 V c 6 t) xs0 := by
  unfold nodeRunMid
  dsimp only
  sl_unfold_words
  rw [View.canon_unit_zero (S := S4096x65) hz2]
  unfold nodeStep
  simp only [View.readAt_eq_ld, Memref.IsWhole.read_unread, read_acc, View.ld_unit_zero (S := S256x4096) hz2, View.ld_unit_zero (S := S256x64) hz2, View.ld_unit_zero (S := S4096x65) hz2, View.ld_unit_zero (S := S128x64) hz2, View.ld_unit_zero (S := S1x64) hz2, View.ld_unit_zero (S := S64x1) hz2, View.ld_unit_zero (S := S1x1) hz2, View.ld_unit_zero (S := S4096x1) hz2]

theorem stepL (h0 : ¬t.val = 0) (h1 : t.val = 31) (xs0 : Vec F S4096x65 .f32) : View.canon (nodeRunLast V c t h0 h1 xs0).2.1 = nodeStep (iblk1 V c 0 t) (iblk1 V c 2 t) (iblk1 V c 1 t) (iblk1 V c 3 t) (iblk1 V c 4 t) (iblk1 V c 5 t) (iblk1 V c 6 t) xs0 := by
  unfold nodeRunLast
  dsimp only
  sl_unfold_words
  rw [View.canon_unit_zero (S := S4096x65) hz2]
  unfold nodeStep
  simp only [View.readAt_eq_ld, Memref.IsWhole.read_unread, read_acc, View.ld_unit_zero (S := S256x4096) hz2, View.ld_unit_zero (S := S256x64) hz2, View.ld_unit_zero (S := S4096x65) hz2, View.ld_unit_zero (S := S128x64) hz2, View.ld_unit_zero (S := S1x64) hz2, View.ld_unit_zero (S := S64x1) hz2, View.ld_unit_zero (S := S1x1) hz2, View.ld_unit_zero (S := S4096x1) hz2]

-- and the last run's result pieces are the epilogue of that accumulator and the small operands.
theorem outL (h0 : ¬t.val = 0) (h1 : t.val = 31) (xs0 : Vec F S4096x65 .f32) :
    View.canon (nodeRunLast V c t h0 h1 xs0).1 = probOut (nodeStep (iblk1 V c 0 t) (iblk1 V c 2 t) (iblk1 V c 1 t) (iblk1 V c 3 t) (iblk1 V c 4 t) (iblk1 V c 5 t) (iblk1 V c 6 t) xs0) (iblk1 V c 2 t) (iblk1 V c 7 t) (iblk1 V c 8 t) (iblk1 V c 9 t) (iblk1 V c 10 t) (iblk1 V c 11 t) (iblk1 V c 12 t) := by
  unfold nodeRunLast
  dsimp only
  sl_unfold_words
  rw [View.canon_unit_zero (S := S4096x1) hz2]
  unfold probOut nodeStep
  simp only [View.readAt_eq_ld, Memref.IsWhole.read_unread, read_acc, View.ld_unit_zero (S := S256x4096) hz2, View.ld_unit_zero (S := S256x64) hz2, View.ld_unit_zero (S := S4096x65) hz2, View.ld_unit_zero (S := S128x64) hz2, View.ld_unit_zero (S := S1x64) hz2, View.ld_unit_zero (S := S64x1) hz2, View.ld_unit_zero (S := S1x1) hz2, View.ld_unit_zero (S := S4096x1) hz2, View.readCov_unit_zero (S := S4096x65) _ hz2]

end Panel

-- The accumulator after panel n is the fold of the panel steps over panels 0 … n of the arrays the region finds.
theorem accAt1_eq (c : Dev nD) : ∀ (n : ℕ) (h : n < cfg1.N),
    accAt1 V c n h = nodeAcc (panelA (V c main_arg0)) (panelN (V c main_arg1)) (V c main_v12) (V c main_v15) (V c main_v18) (V c main_v21) (V c main_v24) n (lt_of_lt_of_eq h N_1)
  | 0, h => by
    rw [accAt1_F V c ⟨0, h⟩ rfl (show ¬(0 : ℕ) = 31 by decide), stepF, iblk1_0_eq V c ⟨0, h⟩ (lt_of_lt_of_eq h N_1), iblk1_1_eq V c ⟨0, h⟩ (lt_of_lt_of_eq h N_1), iblk1_2_eq V c ⟨0, h⟩, iblk1_3_eq V c ⟨0, h⟩, iblk1_4_eq V c ⟨0, h⟩, iblk1_5_eq V c ⟨0, h⟩, iblk1_6_eq V c ⟨0, h⟩]
    rfl
  | n + 1, h => by
    have hN : n + 1 < 32 := lt_of_lt_of_eq h N_1
    by_cases h1 : n + 1 = 31
    · rw [accAt1_L V c ⟨n + 1, h⟩ (Nat.succ_ne_zero n) h1, stepL, iblk1_0_eq V c ⟨n + 1, h⟩ hN, iblk1_1_eq V c ⟨n + 1, h⟩ hN, iblk1_2_eq V c ⟨n + 1, h⟩, iblk1_3_eq V c ⟨n + 1, h⟩, iblk1_4_eq V c ⟨n + 1, h⟩, iblk1_5_eq V c ⟨n + 1, h⟩, iblk1_6_eq V c ⟨n + 1, h⟩]
      show nodeStep _ _ _ _ _ _ _ (accAt1 V c n (Nat.lt_of_succ_lt h)) = _
      rw [accAt1_eq c n]
      rfl
    · rw [accAt1_M V c ⟨n + 1, h⟩ (Nat.succ_ne_zero n) h1, stepM, iblk1_0_eq V c ⟨n + 1, h⟩ hN, iblk1_1_eq V c ⟨n + 1, h⟩ hN, iblk1_2_eq V c ⟨n + 1, h⟩, iblk1_3_eq V c ⟨n + 1, h⟩, iblk1_4_eq V c ⟨n + 1, h⟩, iblk1_5_eq V c ⟨n + 1, h⟩, iblk1_6_eq V c ⟨n + 1, h⟩]
      show nodeStep _ _ _ _ _ _ _ (accAt1 V c n (Nat.lt_of_succ_lt h)) = _
      rw [accAt1_eq c n]
      rfl

abbrev result1 (c : Dev nD) : Vec F S4096x1 .f32 :=
  probOut (nodeAcc (panelA (V c main_arg0)) (panelN (V c main_arg1)) (V c main_v12) (V c main_v15) (V c main_v18) (V c main_v21) (V c main_v24) 31 (by decide))
    (V c main_v12) (V c main_v27) (V c main_v30) (V c main_v33) (V c main_v36) (V c main_v37) (V c main_v38)

theorem resAt1_last (c : Dev nD) : resAt1 V c tLast1 = result1 V c := by
  rw [resAt1_L V c tLast1 (by decide) rfl, outL,
    iblk1_0_eq V c tLast1 (by decide), iblk1_1_eq V c tLast1 (by decide), iblk1_2_eq V c tLast1, iblk1_3_eq V c tLast1, iblk1_4_eq V c tLast1, iblk1_5_eq V c tLast1, iblk1_6_eq V c tLast1, iblk1_7_eq V c tLast1, iblk1_8_eq V c tLast1, iblk1_9_eq V c tLast1, iblk1_10_eq V c tLast1, iblk1_11_eq V c tLast1, iblk1_12_eq V c tLast1]
  unfold accBefore1
  rw [accAt1_eq V c (tLast1.val - 1)]
  rfl

theorem flushed1_eq (c : Dev nD) (t : Fin cfg1.N) (hf : (cfg1.win 13).flush t = true) :
    (dat1 V c).flushed 13 t = ((cfg1.win 13).blk t).view.read (Elt F) (result1 V c) := by
  have hN : cfg1.N = 32 := N_1
  have h31 : t.val = 31 := by have := (flush1_13 t).mp hf; have := t.isLt; omega
  obtain rfl : t = tLast1 := Fin.ext h31
  show (cfg1.win 13).cut (grid1.coords tLast1) ((dat1 V c).after 13 tLast1) = _
  rw [after1_13, resAt1_last]
  exact (readBlk1_13 c tLast1 (result1 V c)).symm

theorem final1 (c : Dev nD) : (dat1 V c).arrAt 13 cfg1.N
    = probOut (nodeAcc (panelA (V c main_arg0)) (panelN (V c main_arg1)) (V c main_v12) (V c main_v15) (V c main_v18) (V c main_v21) (V c main_v24) 31 (by decide))
        (V c main_v12) (V c main_v27) (V c main_v30) (V c main_v33) (V c main_v36) (V c main_v37) (V c main_v38) :=
  (dat1 V c).arrAt_eq_of_cover 13 (result1 V c) (flushed1_eq V c) (coverLast1_13 c)

end Cert.KernelIdeal.Hand

end
-- ==== Proof.SegmentsValue.lean ====
import proofs.«110987_g5892695130345_cont_sun_m_578_16_alg».proof.Proof.Segments
import proofs.«110987_g5892695130345_cont_sun_m_578_16_alg».proof.Proof.EdgePassValue
import proofs.«110987_g5892695130345_cont_sun_m_578_16_alg».proof.Proof.NodePassValue

noncomputable section

namespace Cert.KernelIdeal.Hand

open Cert.KernelIdeal Cert.KernelIdeal.Gen
open Idealize.ShloMosaic Idealize.ShloMosaic.TcCoe Idealize.ShloMosaic.Rounds Idealize.ShloMosaic.StableHlo
open Idealize.SL Idealize.SL.BI Idealize.SL.BI.BIBase Idealize.SL.BI.Laws Idealize.SL.ProofMode
open scoped Idealize.SL.BI

variable {F : FTy → Type} [FloatOps F]
variable (m : (ℓ : Loc nD τ sig) → Buf (Elt F) ℓ) (ρ : Dev nD → PrngReg)

-- From contents `G`, the host operations before the first region compute its operands and leave its other inputs alone.
theorem after0_reads (G : Valuation τ sig (Elt F)) :
    after hostOps0 G main_arg0 = G main_arg0 ∧ after hostOps0 G main_arg1 = G main_arg1 ∧ after hostOps0 G main_arg2 = G main_arg2
    ∧ (after hostOps0 G main_v2 : Vec F S128x64 .f32) = hostWt0 (G main_arg3)
    ∧ (after hostOps0 G main_v5 : Vec F S1x64 .f32) = hostRow0 (G main_arg4)
    ∧ (after hostOps0 G main_v8 : Vec F S1x64 .f32) = hostRow0 (G main_arg5)
    ∧ (after hostOps0 G main_v11 : Vec F S1x64 .f32) = hostRow0 (G main_arg6) := by
  refine ⟨?_, ?_, ?_, ?_, ?_, ?_, ?_⟩ <;> (after_results_simp <;> rfl)

theorem out0_eq (c : Dev nD) : out0 m c = edgePass (V0 m c main_arg0) (V0 m c main_arg1) (V0 m c main_arg2) (V0 m c main_arg3) (V0 m c main_arg4) (V0 m c main_arg5) (V0 m c main_arg6) := by
  obtain ⟨h0, h1, h2, hw, hb, hg, hs⟩ := after0_reads (V0 m c)
  unfold out0 edgePass
  rw [final0 (ent0 m) c]
  unfold ent0 V1
  rw [h0, h1, h2, hw, hb, hg, hs]

-- The same for the operations between the two regions.
theorem after1_reads (G : Valuation τ sig (Elt F)) :
    after hostOps1 G main_arg0 = G main_arg0 ∧ after hostOps1 G main_arg1 = G main_arg1 ∧ after hostOps1 G main_v12 = G main_v12
    ∧ (after hostOps1 G main_v15 : Vec F S128x64 .f32) = hostWt0 (G main_arg7)
    ∧ (after hostOps1 G main_v18 : Vec F S1x64 .f32) = hostRow0 (G main_arg8)
    ∧ (after hostOps1 G main_v21 : Vec F S1x64 .f32) = hostRow0 (G main_arg9)
    ∧ (after hostOps1 G main_v24 : Vec F S1x64 .f32) = hostRow0 (G main_arg10)
    ∧ (after hostOps1 G main_v27 : Vec F S128x64 .f32) = hostWt1 (G main_arg3)
    ∧ (after hostOps1 G main_v30 : Vec F S1x64 .f32) = hostRow1 (G main_arg4)
    ∧ (after hostOps1 G main_v33 : Vec F S1x64 .f32) = hostRow1 (G main_arg5)
    ∧ (after hostOps1 G main_v36 : Vec F S1x64 .f32) = hostRow1 (G main_arg6)
    ∧ (after hostOps1 G main_v37 : Vec F S64x1 .f32) = shapeCast S64x1 (G main_arg11) shapeCasts_S1x64_S64x1
    ∧ (after hostOps1 G main_v38 : Vec F S1x1 .f32) = shapeCast S1x1 (G main_arg12) shapeCasts_S1_S1x1 := by
  refine ⟨?_, ?_, ?_, ?_, ?_, ?_, ?_, ?_, ?_, ?_, ?_, ?_, ?_⟩ <;> (after_results_simp <;> rfl)

-- Up to the second host stretch nothing writes an argument array.
theorem base1_arg (c : Dev nD) {x : Buf (Elt F) ((c : Thread nD τ).loc main_v12)} (r : Ref sig .tc) (hr : r ∈ args) :
    Function.update (V1 m c) main_v12 x (no_index (Proc.devRef .tc r)) = V0 m c r :=
  (Function.update_of_ne (devRef_ne_of_ne ((by decide : ∀ r ∈ args, r ≠ main_v12) r hr)) _ _).trans
    (V1_of m c r ((by decide : ∀ r ∈ args, r ∉ hostOps0_W) r hr))

theorem out1_eq (c : Dev nD) : out1 m c = nodePass (V0 m c main_arg0) (V0 m c main_arg1) (edgePass (V0 m c main_arg0) (V0 m c main_arg1) (V0 m c main_arg2) (V0 m c main_arg3) (V0 m c main_arg4) (V0 m c main_arg5) (V0 m c main_arg6))
    (V0 m c main_arg3) (V0 m c main_arg4) (V0 m c main_arg5) (V0 m c main_arg6) (V0 m c main_arg7) (V0 m c main_arg8) (V0 m c main_arg9) (V0 m c main_arg10) (V0 m c main_arg11) (V0 m c main_arg12) := by
  obtain ⟨h0, h1, h12, h15, h18, h21, h24, h27, h30, h33, h36, h37, h38⟩ := after1_reads (Function.update (V1 m c) main_v12 (out0 m c))
  unfold out1 nodePass
  rw [final1 (ent1 m) c]
  unfold ent1 mid
  rw [h0, h1, h12, h15, h18, h21, h24, h27, h30, h33, h36, h37, h38, Function.update_self, out0_eq]
  simp (disch := decide) only [base1_arg m c]

theorem V5_v40 (c : Dev nD) : (V5 m (outs m) c main_v40 : Vec F S4096 .f32) = kerOut (V0 m c main_arg0) (V0 m c main_arg1) (V0 m c main_arg2) (V0 m c main_arg3) (V0 m c main_arg4) (V0 m c main_arg5) (V0 m c main_arg6) (V0 m c main_arg7) (V0 m c main_arg8) (V0 m c main_arg9) (V0 m c main_arg10) (V0 m c main_arg11) (V0 m c main_arg12) := by
  unfold kerOut
  rw [← out1_eq, ← outs_v39, ← show V4 m (outs m) c main_v39 = outs m 4 main_v39 c from Function.update_self ..]
  after_results; rfl

set_option backward.isDefEq.respectTransparency.types false in
theorem run_result : θ_run defs (onTc (τ := τ) (main (F := F))) ⟨m, fun _ => 0, ρ⟩ (fun r => ∀ c : Dev nD,
      r.2.mem ((c.tc : Thread nD τ).loc main_v40)
        = kerOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12))
      ∧ kept m r.2.mem c) := by
  refine Pipeline.θ_run_regions_kit_dev (pcfgs (F := F)) adm (pdats m) () cellOf_inj emb₁ defs₀ Variants.none L lv m ρ main
    (segs m (outs m) Variants.none L lv (fun _ c => Pipeline.beside c) () (pdats m) (reg0 m) (reg1 m))
    (fun c Q => by rw [main_chain c, Pipeline.Seg.run_eq_chain]; exact .rfl)
    (fun _ => (by decide : [(0 : Fin 2), 1].Nodup))
    0 (fun _ _ => rfl) (fun _ => BI.emp) tok₀ launchElem
    (T₀ := fun c => iprop(StableHlo.held (c : Thread nD τ) (Pipeline.ucRefs τ sig) (V0 m c) ∗ Pipeline.beside c))
    (Tₙ := fun c => StableHlo.held (c : Thread nD τ) (Pipeline.ucRefs τ sig) (V5 m (outs m) c))
    (hch := fun c => ⟨.rfl, .rfl, .rfl, .rfl, .rfl, sep_mono .rfl (by iintro ⟨-, HO⟩; iexact HO)⟩)
    (hinit := ?_)
    (QY := fun c s => ∀ b ∈ Pipeline.ucRefs τ sig, s.mem ((c : Thread nD τ).1, b) = V5 m (outs m) c b)
    (hfin := fun c s' => (pointsTo_read_all _ (fun b => ((c : Thread nD τ).1, b)) (V5 m (outs m) c) s').trans fupd_intro)
    (hQ := fun s h c => ?_)
  · refine Pipeline.initEach L lv fun c => ?_
    rw [← Pipeline.unscopedBufs_held]
    iintro ⟨⟨Hh, -, HO, -, Hp, -⟩, -⟩
    imodintro
    isplitl [Hh]; · iexact Hh
    isplitl [Hp]; · iexists _; iexact Hp
    iexists ∅; iexact HO
  · have rd (r : Ref sig .tc) (hr : ¬ (Proc.devRef .tc r : DevRef τ sig).isScoped) := h c _ (Finset.mem_filter.mpr ⟨StableHlo.devRef_mem_tcRefs r, hr⟩)
    exact ⟨(rd main_v40 (by decide)).trans (V5_v40 m c),
      (rd main_arg0 (by decide)).trans (V5_main_arg0 m _ c), (rd main_arg1 (by decide)).trans (V5_main_arg1 m _ c),
      (rd main_arg2 (by decide)).trans (V5_main_arg2 m _ c), (rd main_arg3 (by decide)).trans (V5_main_arg3 m _ c),
      (rd main_arg4 (by decide)).trans (V5_main_arg4 m _ c), (rd main_arg5 (by decide)).trans (V5_main_arg5 m _ c),
      (rd main_arg6 (by decide)).trans (V5_main_arg6 m _ c), (rd main_arg7 (by decide)).trans (V5_main_arg7 m _ c),
      (rd main_arg8 (by decide)).trans (V5_main_arg8 m _ c), (rd main_arg9 (by decide)).trans (V5_main_arg9 m _ c),
      (rd main_arg10 (by decide)).trans (V5_main_arg10 m _ c), (rd main_arg11 (by decide)).trans (V5_main_arg11 m _ c),
      (rd main_arg12 (by decide)).trans (V5_main_arg12 m _ c)⟩

end Cert.KernelIdeal.Hand

end
-- ==== Proof.Ops.lean ====
import proofs.«110987_g5892695130345_cont_sun_m_578_16_alg».proof.Proof.PassFolds
import Idealize.ShloMosaic.PureOps.Ideal.Laws
import Idealize.ShloMosaic.Lib.ValueLayout

noncomputable section

namespace Cert.KernelIdeal.Hand

open Idealize.ShloMosaic Idealize.ShloMosaic.ValueIdx Cert.KernelIdeal

variable {α : Type}

/-- Where the 64 feature columns and the appended column sit among 65. -/
def wide (j : Fin 64) : Fin 65 := ⟨j.val, by have := j.isLt; omega⟩
def last : Fin 65 := ⟨64, by decide⟩

/-- A concatenation along the columns reads the first array before column `b` and the second from there on. -/
theorem concat_cols_apply {a b c n : ℕ} (x : (⟨2, ![a, b]⟩ : Shape).Idx → α) (y : (⟨2, ![a, c]⟩ : Shape).Idx → α)
    (h : Shape.Concatenates [(⟨2, ![a, b]⟩ : Shape), ⟨2, ![a, c]⟩] ⟨2, ![a, n]⟩ 1) (p : Fin a) (q : Fin n) :
    concatenate ⟨2, ![a, n]⟩ 1 [⟨⟨2, ![a, b]⟩, x⟩, ⟨⟨2, ![a, c]⟩, y⟩] h (ix2 p q)
      = if hq : q.val < b then x (ix2 p ⟨q.val, hq⟩)
        else y (ix2 p ⟨q.val - b, by have e : b + (c + 0) = n := h.2.2; have := q.isLt; omega⟩) := by
  split
  · exact concatenate_pair_apply_left (t := ⟨2, ![a, n]⟩) 1 x y h (ix2 p q) rfl _ fun ax => by
      match ax with
      | ⟨0, _⟩ => rfl
      | ⟨1, _⟩ => rfl
  · next hq =>
    exact concatenate_pair_apply_right (t := ⟨2, ![a, n]⟩) 1 x y h (ix2 p q) rfl rfl _ (fun ax hne => by
      match ax with
      | ⟨0, _⟩ => rfl
      | ⟨1, _⟩ => exact absurd rfl hne) (Nat.sub_add_cancel (Nat.le_of_not_lt hq))

/-- Adding a trailing unit axis does not move an entry in row-major order. -/
theorem cast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- Nor does turning one row into one column. -/
theorem row_col_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    rw [Shape.rowMajor_val_two, Shape.rowMajor_val_two]
    show 0 * a + i.val = i.val * 1 + u.val
    omega)

/-- Nor does dropping a trailing unit axis. -/
theorem drop_col_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Broadcasting along the second axis repeats each row's single entry. -/
theorem bcast_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lastCol_apply {n : ℕ} (x : (⟨2, ![n, 65]⟩ : Shape).Idx → α) (h : (⟨2, ![n, 65]⟩ : Shape).Slices ![0, 64] ⟨2, ![n, 1]⟩)
    (r : Fin n) (u : Fin 1) : extractStridedSlice ⟨2, ![n, 1]⟩ ![0, 64] x h (ix2 r u) = x (ix2 r last) :=
  slice2_axis1_apply 64 x h r u last (by show 64 = 64 + u.val; omega)

theorem firstCols_apply {n : ℕ} (x : (⟨2, ![n, 65]⟩ : Shape).Idx → α) (h : (⟨2, ![n, 65]⟩ : Shape).Slices ![0, 0] ⟨2, ![n, 64]⟩)
    (r : Fin n) (j : Fin 64) : extractStridedSlice ⟨2, ![n, 64]⟩ ![0, 0] x h (ix2 r j) = x (ix2 r (wide j)) :=
  slice2_axis1_apply 0 x h r j (wide j) (Nat.zero_add _).symm

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- A reduction of the second axis is, row by row, a finite sum. -/
theorem rowSum_fun {n m : ℕ} (v : FVec Ideal ⟨2, ![n, m]⟩ .f32) (h : (⟨2, ![n, m]⟩ : Shape).Reduces [1] ⟨1, ![n]⟩)
    (hφ : FKind.Formats .f32) (hacc : (0x00000000#32 : BitVec 32) = 0x00000000#32) :
    multiReduction (F := Ideal) .add [1] ⟨1, ![n]⟩ v 0x00000000#32 h hφ hacc = fun i => ∑ k : Fin m, v (ix2 (i 0) k) := by
  funext i
  refine (Ideal.multiReduction_add_single v _ h hφ hacc i).trans ?_
  refine Finset.sum_congr rfl fun k _ => congrArg v (funext fun a => Fin.ext ?_)
  match a with
  | ⟨0, _⟩ => rfl
  | ⟨1, _⟩ => rfl

/-- With a zero accumulator, entry `(r, c)` of `x · y` is `∑ k, x r k * y k c`. -/
theorem matmul_plain_apply {M K N : ℕ} {φ₁ φ₂ : FTy}
    (wf : DotDims.WF ⟨2, ![M, K]⟩ ⟨2, ![K, N]⟩ ⟨2, ![M, N]⟩ [1] [0] [0] [1] [] [])
    (x : FVec Ideal ⟨2, ![M, K]⟩ φ₁) (y : FVec Ideal ⟨2, ![K, N]⟩ φ₂) (r : Fin M) (c : Fin N) :
    FloatOps.matmul (⟨[1], [0], [0], [1], [], [], wf⟩ : DotDims ⟨2, ![M, K]⟩ ⟨2, ![K, N]⟩ ⟨2, ![M, N]⟩) none x y
        (constant ⟨2, ![M, N]⟩ .f32 0x00000000#32) (ix2 r c)
      = ∑ k : Fin K, x (ix2 r k) * y (ix2 k c) := by
  rw [Ideal.matmul_constant_zero_apply, ← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  congr 2 <;> funext a <;> apply Fin.ext
  · match a with
    | ⟨0, _⟩ => rfl
    | ⟨1, _⟩ => exact hk
  · match a with
    | ⟨0, _⟩ => exact hk
    | ⟨1, _⟩ => rfl

/-- With a zero accumulator, entry `(r, c)` of `xᵀ · y` is `∑ k, x k r * y k c`. -/
theorem matmul_tlhs_apply {M K N : ℕ} {φ₁ φ₂ : FTy}
    (wf : DotDims.WF ⟨2, ![K, M]⟩ ⟨2, ![K, N]⟩ ⟨2, ![M, N]⟩ [0] [0] [1] [1] [] [])
    (x : FVec Ideal ⟨2, ![K, M]⟩ φ₁) (y : FVec Ideal ⟨2, ![K, N]⟩ φ₂) (r : Fin M) (c : Fin N) :
    FloatOps.matmul (⟨[0], [0], [1], [1], [], [], wf⟩ : DotDims ⟨2, ![K, M]⟩ ⟨2, ![K, N]⟩ ⟨2, ![M, N]⟩) none x y
        (constant ⟨2, ![M, N]⟩ .f32 0x00000000#32) (ix2 r c)
      = ∑ k : Fin K, x (ix2 k r) * y (ix2 k c) := by
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  congr 2 <;> funext a <;> apply Fin.ext
  · match a with
    | ⟨0, _⟩ => exact hk
    | ⟨1, _⟩ => rfl
  · match a with
    | ⟨0, _⟩ => exact hk
    | ⟨1, _⟩ => rfl

theorem matmulA_apply {φ₁ φ₂ : FTy} (x : FVec Ideal S256x4096 φ₁) (y : FVec Ideal S4096x65 φ₂) (r : Fin 256) (c : Fin 65) :
    matmul dot_S256x4096_S4096x65_S256x65_1_0_0_1_n_n none x y (constant (F := Ideal) S256x65 .f32 0x00000000#32) (ix2 r c)
      = ∑ k : Fin 4096, x (ix2 r k) * y (ix2 k c) := matmul_plain_apply _ x y r c
theorem matmulB_apply {φ₁ φ₂ : FTy} (x : FVec Ideal S256x128 φ₁) (y : FVec Ideal S128x64 φ₂) (r : Fin 256) (c : Fin 64) :
    matmul dot_S256x128_S128x64_S256x64_1_0_0_1_n_n none x y (constant (F := Ideal) S256x64 .f32 0x00000000#32) (ix2 r c)
      = ∑ k : Fin 128, x (ix2 r k) * y (ix2 k c) := matmul_plain_apply _ x y r c
theorem matmulC_apply {φ₁ φ₂ : FTy} (x : FVec Ideal S256x4096 φ₁) (y : FVec Ideal S256x65 φ₂) (r : Fin 4096) (c : Fin 65) :
    matmul dot_S256x4096_S256x65_S4096x65_0_0_1_1_n_n none x y (constant (F := Ideal) S4096x65 .f32 0x00000000#32) (ix2 r c)
      = ∑ k : Fin 256, x (ix2 k r) * y (ix2 k c) := matmul_tlhs_apply _ x y r c
theorem matmulD_apply {φ₁ φ₂ : FTy} (x : FVec Ideal S4096x128 φ₁) (y : FVec Ideal S128x64 φ₂) (r : Fin 4096) (c : Fin 64) :
    matmul dot_S4096x128_S128x64_S4096x64_1_0_0_1_n_n none x y (constant (F := Ideal) S4096x64 .f32 0x00000000#32) (ix2 r c)
      = ∑ k : Fin 128, x (ix2 r k) * y (ix2 k c) := matmul_plain_apply _ x y r c
theorem matmulE_apply {φ₁ φ₂ : FTy} (x : FVec Ideal S4096x64 φ₁) (y : FVec Ideal S64x1 φ₂) (r : Fin 4096) (c : Fin 1) :
    matmul dot_S4096x64_S64x1_S4096x1_1_0_0_1_n_n none x y (constant (F := Ideal) S4096x1 .f32 0x00000000#32) (ix2 r c)
      = ∑ k : Fin 64, x (ix2 r k) * y (ix2 k c) := matmul_plain_apply _ x y r c

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx

def degFloor : EReal := Ideal.ofBits .f32 0x358637BD#32

def varFloor : EReal := Ideal.ofBits .f32 0x3727C5AC#32

def width : EReal := Ideal.ofBits .f32 0x42800000#32

def slope : EReal := Ideal.ofBits .f32 0x3F333333#32

def nought : EReal := Ideal.ofBits .f32 0x00000000#32

abbrev Row : Type := Fin 64 → EReal

def mean (h : Row) : EReal := Ideal.div (∑ k, h k) width

def centred (h : Row) : Row := fun j => h j - mean h

def variance (h : Row) : EReal := Ideal.div (∑ k, centred h k * centred h k) width

def layerNorm (h g b : Row) : Row :=
  fun j => centred h j * Ideal.rsqrt (variance h + varFloor) * g j + b j

def beside (x y : Row) : Fin 128 → EReal :=
  fun k => if h : k.val < 64 then x ⟨k.val, h⟩ else y ⟨k.val - 64, by omega⟩

def dense (x : Fin 128 → EReal) (W : Fin 128 → Fin 64 → EReal) (b : Row) : Row :=
  fun j => max ((∑ k, x k * W k j) + b j) nought

def update (x msg : Row) (W : Fin 128 → Fin 64 → EReal) (b g s : Row) : Row :=
  fun j => x j + layerNorm (dense (beside x msg) W b) g s j

abbrev Incidence : Type := (⟨2, ![8192, 4096]⟩ : Shape).Idx → EReal
abbrev NodeFeat : Type := (⟨2, ![8192, 64]⟩ : Shape).Idx → EReal
abbrev EdgeFeat : Type := (⟨2, ![4096, 64]⟩ : Shape).Idx → EReal
abbrev Weights : Type := (⟨3, ![2, 64, 128]⟩ : Shape).Idx → EReal
abbrev Rows2 : Type := (⟨2, ![2, 64]⟩ : Shape).Idx → EReal
abbrev ReadOut : Type := (⟨2, ![1, 64]⟩ : Shape).Idx → EReal
abbrev Offset : Type := (⟨1, ![1]⟩ : Shape).Idx → EReal
abbrev Probs : Type := (⟨1, ![4096]⟩ : Shape).Idx → EReal

def weightT (W : Weights) (l : Fin 2) : Fin 128 → Fin 64 → EReal := fun k j => W (ix3 l j k)

def rowOf (p : Rows2) (l : Fin 2) : Row := fun j => p (ix2 l j)

def edgeDeg (A : Incidence) (e : Fin 4096) : EReal := max degFloor (∑ n : Fin 8192, A (ix2 n e))
def nodeDeg (A : Incidence) (n : Fin 8192) : EReal := max degFloor (∑ e : Fin 4096, A (ix2 n e))

def edgeMsg (A : Incidence) (X : Fin 8192 → Row) (e : Fin 4096) : Row :=
  fun j => Ideal.div (∑ n : Fin 8192, A (ix2 n e) * X n j) (edgeDeg A e)

def nodeMsg (A : Incidence) (Y : Fin 4096 → Row) (n : Fin 8192) : Row :=
  fun j => Ideal.div (∑ e : Fin 4096, A (ix2 n e) * Y e j) (nodeDeg A n)

def unity : EReal := Ideal.ofBits .f32 0x3F800000#32

section From
variable (A : Incidence) (n0 : NodeFeat) (E1 : Fin 4096 → Row) (eW : Weights) (eb eg es : Rows2)
  (nW : Weights) (nb ng ns : Rows2) (dW : ReadOut) (db : Offset)

def nodesFrom (n : Fin 8192) : Row :=
  update (fun j => n0 (ix2 n j)) (nodeMsg A E1 n) (weightT nW 0) (rowOf nb 0) (rowOf ng 0) (rowOf ns 0)

def edgesFrom (e : Fin 4096) : Row :=
  update (E1 e) (edgeMsg A (nodesFrom A n0 E1 nW nb ng ns) e) (weightT eW 1) (rowOf eb 1) (rowOf eg 1) (rowOf es 1)

def logitFrom (e : Fin 4096) : EReal :=
  (∑ j : Fin 64, edgesFrom A n0 E1 eW eb eg es nW nb ng ns e j * dW (ix2 0 j)) + db (ix1 0)

def probFrom (e : Fin 4096) : EReal :=
  Ideal.logistic (slope * logitFrom A n0 E1 eW eb eg es nW nb ng ns dW db e)

end From

section Net
variable (A : Incidence) (n0 : NodeFeat) (e0 : EdgeFeat) (eW : Weights) (eb eg es : Rows2)
  (nW : Weights) (nb ng ns : Rows2) (dW : ReadOut) (db : Offset)

def edges1 (e : Fin 4096) : Row :=
  update (fun j => e0 (ix2 e j)) (edgeMsg A (fun n j => n0 (ix2 n j)) e) (weightT eW 0) (rowOf eb 0) (rowOf eg 0) (rowOf es 0)

def probs : Probs :=
  fun i => probFrom A n0 (edges1 A n0 e0 eW eb eg es) eW eb eg es nW nb ng ns dW db (i 0)

end Net

end Cert.Spec

end
-- ==== Proof.Layer.lean ====
import proofs.«110987_g5892695130345_cont_sun_m_578_16_alg».proof.Proof.Ops
import proofs.«110987_g5892695130345_cont_sun_m_578_16_alg».proof.Proof.Spec

noncomputable section

namespace Cert.KernelIdeal.Hand

open Idealize.ShloMosaic Idealize.ShloMosaic.ValueIdx Cert.KernelIdeal Cert.KernelIdeal.Gen

/-- A row of 64 with the float one appended as entry 64. -/
def cat (f : Spec.Row) (c : Fin 65) : EReal := if h : c.val < 64 then f ⟨c.val, h⟩ else Spec.unity

/-- Normalising row `r`: entries 0 … 63 each multiplied by `1 / max floor (entry 64)`. -/
def msgOf {n : ℕ} (P : (⟨2, ![n, 65]⟩ : Shape).Idx → EReal) (r : Fin n) : Spec.Row :=
  fun j => P (ix2 r (wide j)) * Ideal.div Spec.unity (max Spec.degFloor (P (ix2 r last)))

def rowK (p : Vec Ideal S1x64 .f32) : Spec.Row := fun j => p (ix2 (0 : Fin 1) j)
def wtK (wt : Vec Ideal S128x64 .f32) : Fin 128 → Fin 64 → EReal := fun k j => wt (ix2 k j)

/-- The layer: row `r` of `X` updated by the message row `r` of `P`. -/
def newRow {n : ℕ} (P : (⟨2, ![n, 65]⟩ : Shape).Idx → EReal) (X : (⟨2, ![n, 64]⟩ : Shape).Idx → EReal)
    (wt : Vec Ideal S128x64 .f32) (b g s : Vec Ideal S1x64 .f32) (r : Fin n) : Spec.Row :=
  Spec.update (fun j => X (ix2 r j)) (msgOf P r) (wtK wt) (rowK b) (rowK g) (rowK s)

/-- The rows of `X` times a 65-column array. -/
def prod {n : ℕ} (X : (⟨2, ![n, 4096]⟩ : Shape).Idx → EReal) (e1 : Vec Ideal S4096x65 .f32) : (⟨2, ![n, 65]⟩ : Shape).Idx → EReal :=
  fun i => ∑ k : Fin 4096, X (ix2 (i 0) k) * e1 (ix2 k (i 1))

theorem pay_zero (i : S4096x65.Idx) : (k0_pay1 (F := Ideal)) i = 0 := by
  unfold k0_pay1
  simp only [shapeCast_self, broadcast_apply]
  exact Ideal.ofBits_zero_f32

/-- A panel step of the first pass adds the transposed panel times the node rows beside one. -/
theorem edgeStep_apply (A : Vec Ideal S256x4096 .f32) (N : Vec Ideal S256x64 .f32) (acc : Vec Ideal S4096x65 .f32)
    (e : Fin 4096) (c : Fin 65) :
    k0_pay2 A N acc (ix2 e c) = acc (ix2 e c) + ∑ r : Fin 256, A (ix2 r e) * cat (fun j => N (ix2 r j)) c := by
  unfold k0_pay2
  simp only [addf_apply, broadcast_apply, truncf_apply, shapeCast_self, concat_cols_apply, matmulC_apply]
  rfl

/-- The first pass's epilogue is the layer on the accumulator's rows, beside one. -/
theorem edgeOut_apply (acc : Vec Ideal S4096x65 .f32) (e0 : Vec Ideal S4096x64 .f32) (wt : Vec Ideal S128x64 .f32) (b g s : Vec Ideal S1x64 .f32)
    (e : Fin 4096) (j : Fin 65) :
    edgeOut acc e0 wt b g s (ix2 e j) = cat (newRow acc e0 wt b g s e) j := by
  unfold edgeOut k0_pay3 k0_pay4 k0_pay5 k0_pay7 k0_pay6
  dsimp only
  rw [rowSum_fun, rowSum_fun]
  simp only [addf_apply, subf_apply, mulf_apply, divf_apply, maximumf_apply, broadcast_apply, shapeCast_self, rsqrt_apply,
    concat_cols_apply, bcast_col_apply, cast_col_apply, lastCol_apply, firstCols_apply, broadcastTo_1b_ab_apply, matmulD_apply]
  rfl

/-- A panel step of the second pass adds the transposed panel times the layer's rows on the panel's product, beside one. -/
theorem nodeStep_apply (Ab : Vec Ideal S256x4096 .f32) (e1 : Vec Ideal S4096x65 .f32) (Nb : Vec Ideal S256x64 .f32)
    (wt : Vec Ideal S128x64 .f32) (b g s : Vec Ideal S1x64 .f32) (prev : Vec Ideal S4096x65 .f32) (e : Fin 4096) (c : Fin 65) :
    nodeStep (F := Ideal) Ab e1 Nb wt b g s prev (ix2 e c)
      = prev (ix2 e c) + ∑ r : Fin 256, Ab (ix2 r e) * cat (newRow (prod Ab e1) Nb wt b g s r) c := by
  unfold nodeStep k1_pay1 k1_pay11 k1_pay12 k1_pay13 k1_pay10 k1_pay9
  dsimp only
  rw [rowSum_fun, rowSum_fun]
  simp only [addf_apply, subf_apply, mulf_apply, divf_apply, maximumf_apply, broadcast_apply, truncf_apply, shapeCast_self,
    rsqrt_apply, concat_cols_apply, bcast_col_apply, cast_col_apply, lastCol_apply, firstCols_apply, broadcastTo_1b_ab_apply,
    matmulA_apply, matmulB_apply, matmulC_apply]
  rfl

/-- The second pass's epilogue is the layer on the accumulator's rows, read out through the logistic function. -/
theorem probOut_apply (acc e1 : Vec Ideal S4096x65 .f32) (wt : Vec Ideal S128x64 .f32) (b g s : Vec Ideal S1x64 .f32)
    (dw : Vec Ideal S64x1 .f32) (db : Vec Ideal S1x1 .f32) (e : Fin 4096) (u : Fin 1) :
    probOut (F := Ideal) acc e1 wt b g s dw db (ix2 e u)
      = Ideal.logistic (Spec.slope * ((∑ j : Fin 64,
          Spec.update (fun j => e1 (ix2 e (wide j))) (msgOf acc e) (wtK wt) (rowK b) (rowK g) (rowK s) j * dw (ix2 j u))
            + db (ix2 (0 : Fin 1) u))) := by
  unfold probOut k1_pay2 k1_pay4 k1_pay5 k1_pay7 k1_pay6 k1_pay3
  dsimp only
  rw [rowSum_fun, rowSum_fun]
  simp only [addf_apply, subf_apply, mulf_apply, divf_apply, maximumf_apply, broadcast_apply, shapeCast_self, rsqrt_apply,
    logistic_apply, concat_cols_apply, bcast_col_apply, cast_col_apply, lastCol_apply, firstCols_apply, broadcastTo_1b_ab_apply,
    matmulD_apply, matmulE_apply]
  rfl

end Cert.KernelIdeal.Hand

end
-- ==== Proof.LibExtendedReals.lean ====
import Idealize.ShloMosaic.PureOps.Ideal

noncomputable section

namespace Cert.LibEReal

open Idealize.ShloMosaic

theorem mul_div_one (x d : EReal) (hd : d ≠ 0) : x * Ideal.div 1 d = Ideal.div x d := by
  unfold Ideal.div
  rw [if_neg hd, if_neg hd, one_mul]

-- Case split on `v`: the infinite case is `x * 0` on both sides, the finite case is real arithmetic.
theorem mul_rsqrt (x v : EReal) (hv : 0 < v) : x * Ideal.rsqrt v = Ideal.div x (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne',
      if_neg (not_lt.mpr hr.le), Ideal.div, if_neg (by exact_mod_cast hs), EReal.coe_inv]

theorem ofBits_one : Ideal.ofBits .f32 0x3F800000#32 = 1 := by
  simp [Ideal.ofBits, Ideal.ieee, -EReal.coe_mul]; norm_num

theorem ofBits_sixtyfour : Ideal.ofBits .f32 0x42800000#32 = ((64 : ℝ) : EReal) := by
  simp [Ideal.ofBits, Ideal.ieee, -EReal.coe_mul]; norm_num

theorem mul_self_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (_root_.mul_self_nonneg r)

-- A nonnegative quotient plus a positive constant.
theorem variance_pos (c : Fin 64 → EReal) :
    0 < Ideal.div (∑ k, c k * c k) (Ideal.ofBits .f32 0x42800000#32) + Ideal.ofBits .f32 0x3727C5AC#32 := by
  rw [ofBits_sixtyfour, Ideal.div_coe (by norm_num)]
  exact Right.add_pos_of_nonneg_of_pos
    (mul_nonneg (Finset.sum_nonneg fun i _ => mul_self_nonneg (c i)) (EReal.coe_nonneg.mpr (by positivity)))
    (by simp [Ideal.ofBits, Ideal.ieee, -EReal.coe_mul])

theorem degree_ne_zero (s : EReal) : max (Ideal.ofBits .f32 0x358637BD#32) s ≠ 0 :=
  (lt_max_of_lt_left (by simp [Ideal.ofBits, Ideal.ieee, -EReal.coe_mul])).ne'

variable {M : Type*} [AddCommMonoid M]

theorem sum_fin_panels (f : Fin 8192 → M) :
    ∑ n, f n = ∑ t : Fin 32, ∑ r : Fin 256, f ⟨256 * t.val + r.val, by omega⟩ := by
  rw [← Equiv.sum_comp (finProdFinEquiv (m := 32) (n := 256)) f, Fintype.sum_prod_type]
  refine Finset.sum_congr rfl fun t _ => Finset.sum_congr rfl fun r _ => congrArg f (Fin.ext ?_)
  show r.val + 256 * t.val = 256 * t.val + r.val
  omega

-- A recursion that starts at the first panel's sum and adds one panel's sum a step ends, after 32 steps, at the sum over all rows.
theorem acc_panels (f : Fin 8192 → M) (a : (n : ℕ) → n < 32 → M)
    (h0 : ∀ h, a 0 h = ∑ r : Fin 256, f ⟨256 * 0 + r.val, by omega⟩)
    (hs : ∀ n (h : n + 1 < 32), a (n + 1) h = a n (Nat.lt_of_succ_lt h) + ∑ r : Fin 256, f ⟨256 * (n + 1) + r.val, by omega⟩) :
    a 31 (by decide) = ∑ n, f n := by
  have key : ∀ n (h : n < 32), a n h = ∑ t : Fin (n + 1), ∑ r : Fin 256, f ⟨256 * t.val + r.val, by have := t.isLt; omega⟩ := by
    intro n
    induction n with
    | zero => intro h; rw [h0, Fin.sum_univ_one]; rfl
    | succ n ih => intro h; rw [hs, ih]; symm; exact Fin.sum_univ_castSucc _
  exact (key 31 _).trans (sum_fin_panels f).symm

end Cert.LibEReal

end
-- ==== Proof.Bridge.lean ====
import proofs.«110987_g5892695130345_cont_sun_m_578_16_alg».proof.Proof.Layer
import proofs.«110987_g5892695130345_cont_sun_m_578_16_alg».proof.Proof.LibExtendedReals

noncomputable section

namespace Cert.KernelIdeal.Hand

open Idealize.ShloMosaic Idealize.ShloMosaic.ValueIdx Cert.KernelIdeal Cert.KernelIdeal.Gen

/-- A row that holds the sums of `a k · [Y k | 1]` is, as a message, the weighted sum over the floored sum of the weights. -/
theorem msgOf_sums {n : ℕ} {ι : Type} [Fintype ι] (P : (⟨2, ![n, 65]⟩ : Shape).Idx → EReal) (r : Fin n) (a : ι → EReal)
    (Y : ι → Spec.Row) (hP : ∀ c, P (ix2 r c) = ∑ k, a k * cat (Y k) c) :
    msgOf P r = fun j => Ideal.div (∑ k, a k * Y k j) (max Spec.degFloor (∑ k, a k)) := by
  funext j
  have hw : ∀ k, cat (Y k) (wide j) = Y k j := fun k => dif_pos j.isLt
  have hl : ∀ k, a k * cat (Y k) last = a k := fun k => by
    rw [cat, dif_neg (show ¬ last.val < 64 by decide), Spec.unity, LibEReal.ofBits_one, mul_one]
  unfold msgOf
  simp only [hP, hw, hl]
  rw [Spec.unity, LibEReal.ofBits_one]
  exact LibEReal.mul_div_one _ _ (LibEReal.degree_ne_zero _)

/-- Slice `o`, squeezed and transposed, reads `W o c k` at `(k, c)`. -/
theorem weightT_of (o : ℕ) (ho : o < 2) (W : Vec Ideal S2x64x128 .f32) (h : S2x64x128.Slices ![o, 0, 0] S1x64x128)
    (k : Fin 128) (c : Fin 64) :
    transpose S128x64 [1, 0] (shapeCast S64x128 (extractStridedSlice S1x64x128 ![o, 0, 0] W h) shapeCasts_S1x64x128_S64x128)
        transposes_S64x128_S128x64_1_0 (ix2 k c) = W (ix3 ⟨o, ho⟩ c k) := by
  rw [transpose_ix2_apply, shapeCast_1ab_ab_apply]
  exact extractStridedSlice_apply _ _ _ _ _ fun ax => by
    match ax with
    | ⟨0, _⟩ => rfl
    | ⟨1, _⟩ => exact (Nat.zero_add _).symm
    | ⟨2, _⟩ => exact (Nat.zero_add _).symm

/-- Slice `o` of a two-row parameter, reshaped twice, still reads `p o c` at `(0, c)`. -/
theorem rowOf_of (o : ℕ) (ho : o < 2) (p : Vec Ideal S2x64 .f32) (h : S2x64.Slices ![o, 0] S1x64) (c : Fin 64) :
    shapeCast S1x64 (shapeCast S64 (extractStridedSlice S1x64 ![o, 0] p h) shapeCasts_S1x64_S64) shapeCasts_S64_S1x64
        (ix2 (0 : Fin 1) c) = p (ix2 ⟨o, ho⟩ c) := by
  rw [shapeCast_a_1a_apply, shapeCast_1a_a_apply]
  exact slice2_axis0_apply o p _ (0 : Fin 1) c ⟨o, ho⟩ rfl

theorem wtK_host0 (W : Vec Ideal S2x64x128 .f32) : wtK (hostWt0 W) = Spec.weightT W 0 :=
  funext fun k => funext fun c => weightT_of 0 (by decide) W slices_S2x64x128_S1x64x128_0_0_0 k c
theorem wtK_host1 (W : Vec Ideal S2x64x128 .f32) : wtK (hostWt1 W) = Spec.weightT W 1 :=
  funext fun k => funext fun c => weightT_of 1 (by decide) W slices_S2x64x128_S1x64x128_1_0_0 k c
theorem rowK_host0 (p : Vec Ideal S2x64 .f32) : rowK (hostRow0 p) = Spec.rowOf p 0 := funext fun c => rowOf_of 0 (by decide) p slices_S2x64_S1x64_0_0 c
theorem rowK_host1 (p : Vec Ideal S2x64 .f32) : rowK (hostRow1 p) = Spec.rowOf p 1 := funext fun c => rowOf_of 1 (by decide) p slices_S2x64_S1x64_1_0 c

/-- Thirty-two panel steps from zero add up to one sum over the 8192 nodes. -/
theorem edgeAcc_apply (A : Vec Ideal S8192x4096 .f32) (X : Vec Ideal S8192x64 .f32) (e : Fin 4096) (c : Fin 65) :
    edgeAcc (panelA A) (panelN X) 31 (by decide) (ix2 e c) = ∑ n : Fin 8192, A (ix2 n e) * cat (fun j => X (ix2 n j)) c :=
  LibEReal.acc_panels (fun n => A (ix2 n e) * cat (fun j => X (ix2 n j)) c) (fun n h => edgeAcc (panelA A) (panelN X) n h (ix2 e c))
    (fun h => by rw [edgeAcc, edgeStep_apply, pay_zero, zero_add]; rfl) (fun n h => by rw [edgeAcc, edgeStep_apply]; rfl)

/-- Pass one computes `edges1` with a trailing one. -/
theorem edgePass_apply (A : Vec Ideal S8192x4096 .f32) (n0 : Vec Ideal S8192x64 .f32) (e0 : Vec Ideal S4096x64 .f32)
    (eW : Vec Ideal S2x64x128 .f32) (eb eg es : Vec Ideal S2x64 .f32) (e : Fin 4096) (j : Fin 65) :
    edgePass (F := Ideal) A n0 e0 eW eb eg es (ix2 e j) = cat (Spec.edges1 A n0 e0 eW eb eg es e) j := by
  unfold edgePass
  rw [edgeOut_apply]
  unfold newRow Spec.edges1
  rw [msgOf_sums _ e _ _ (edgeAcc_apply A n0 e), wtK_host0, rowK_host0, rowK_host0, rowK_host0]
  rfl

/-- The same for pass two, whose addends are the layer's rows with a trailing one. -/
theorem nodeAcc_apply (A : Vec Ideal S8192x4096 .f32) (n0 : Vec Ideal S8192x64 .f32) (e1 : Vec Ideal S4096x65 .f32)
    (wt : Vec Ideal S128x64 .f32) (b g s : Vec Ideal S1x64 .f32) (e : Fin 4096) (c : Fin 65) :
    nodeAcc (F := Ideal) (panelA A) (panelN n0) e1 wt b g s 31 (by decide) (ix2 e c)
      = ∑ n : Fin 8192, A (ix2 n e) * cat (newRow (prod A e1) n0 wt b g s n) c :=
  LibEReal.acc_panels (fun n => A (ix2 n e) * cat (newRow (prod A e1) n0 wt b g s n) c)
    (fun n h => nodeAcc (panelA A) (panelN n0) e1 wt b g s n h (ix2 e c))
    (fun h => by rw [nodeAcc, nodeStep_apply, show (k1_pay8 (F := Ideal)) (ix2 e c) = 0 from pay_zero _, zero_add]; rfl)
    (fun n h => by rw [nodeAcc, nodeStep_apply]; rfl)

/-- Given `E1` with a trailing one as input, pass two computes `probFrom … E1`. -/
theorem nodePass_apply (A : Vec Ideal S8192x4096 .f32) (n0 : Vec Ideal S8192x64 .f32) (e1 : Vec Ideal S4096x65 .f32)
    (E1 : Fin 4096 → Spec.Row) (h1 : ∀ e j, e1 (ix2 e j) = cat (E1 e) j)
    (eW : Vec Ideal S2x64x128 .f32) (eb eg es : Vec Ideal S2x64 .f32) (nW : Vec Ideal S2x64x128 .f32) (nb ng ns : Vec Ideal S2x64 .f32)
    (dW : Vec Ideal S1x64 .f32) (db : Vec Ideal S1 .f32) (e : Fin 4096) :
    nodePass (F := Ideal) A n0 e1 eW eb eg es nW nb ng ns dW db (ix2 e (0 : Fin 1))
      = Spec.probFrom A n0 E1 eW eb eg es nW nb ng ns dW db e := by
  have hn : ∀ n, newRow (prod A e1) n0 (hostWt0 nW) (hostRow0 nb) (hostRow0 ng) (hostRow0 ns) n
      = Spec.nodesFrom A n0 E1 nW nb ng ns n := fun n => by
    unfold newRow Spec.nodesFrom
    rw [msgOf_sums _ n (fun k => A (ix2 n k)) E1 fun c => Finset.sum_congr rfl fun k _ => by rw [h1],
      wtK_host0, rowK_host0, rowK_host0, rowK_host0]
    rfl
  have hx : (fun j => e1 (ix2 e (wide j))) = E1 e := funext fun j => (h1 e (wide j)).trans (dif_pos j.isLt)
  unfold nodePass
  rw [probOut_apply, hx, msgOf_sums _ e _ _ (nodeAcc_apply A n0 e1 _ _ _ _ e), wtK_host1, rowK_host1, rowK_host1, rowK_host1]
  simp only [hn, row_col_apply, cast_col_apply]
  rfl

/-- Both passes composed give `Spec.probs`. -/
theorem kerOut_eq (A : Vec Ideal S8192x4096 .f32) (n0 : Vec Ideal S8192x64 .f32) (e0 : Vec Ideal S4096x64 .f32) (eW : Vec Ideal S2x64x128 .f32)
    (eb eg es : Vec Ideal S2x64 .f32) (nW : Vec Ideal S2x64x128 .f32) (nb ng ns : Vec Ideal S2x64 .f32) (dW : Vec Ideal S1x64 .f32) (db : Vec Ideal S1 .f32) :
    kerOut (F := Ideal) A n0 e0 eW eb eg es nW nb ng ns dW db = Cert.Spec.probs A n0 e0 eW eb eg es nW nb ng ns dW db := by
  funext i
  obtain ⟨e, rfl⟩ : ∃ e : Fin 4096, i = ix1 e := ⟨i 0, eq_ix1 i⟩
  unfold kerOut
  rw [drop_col_apply]
  exact nodePass_apply A n0 _ _ (edgePass_apply A n0 e0 eW eb eg es) eW eb eg es nW nb ng ns dW db e

end Cert.KernelIdeal.Hand

end
-- ==== Proof.RefOps.lean ====
import proofs.«110987_g5892695130345_cont_sun_m_578_16_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev varOps (a0 : TRef sig ⟨S4096x64, .f32⟩) (a1 : TRef sig ⟨S_, .i32⟩) (φ : fn_var.Bufs) : List (HloOp τ sig (Elt F)) :=
  [ TRef.nullary φ.cst (constant S_ .f32 0x00000000#32),
    TRef.binary a0 φ.cst φ.v0 (fun x v => Host.reduceAdd x v reducesTo_S4096x64_S4096_d1 h_S_),
    TRef.unary φ.v0 φ.v1 (broadcastInDim S4096x1 ![0] bcast_S4096_S4096x1_0),
    TRef.nullary φ.cst_0 (constant S_ .f32 0x42800000#32),
    TRef.unary φ.cst_0 φ.v2 (broadcastInDim S4096x1 ![] bcast_S_S4096x1),
    TRef.binary φ.v1 φ.v2 φ.v3 Host.divf,
    TRef.unary φ.v3 φ.v4 (broadcastInDim S4096x64 ![0, 1] bcast_S4096x1_S4096x64_0_1),
    TRef.binary a0 φ.v4 φ.v5 subf,
    TRef.binary φ.v5 φ.v5 φ.v6 mulf,
    TRef.unary a1 φ.v7 (sitofp .f32),
    TRef.nullary φ.cst_1 (constant S_ .f32 0x42800000#32),
    TRef.binary φ.cst_1 φ.v7 φ.v8 subf,
    TRef.nullary φ.cst_2 (constant S_ .f32 0x00000000#32),
    TRef.binary φ.v6 φ.cst_2 φ.v9 (fun x v => Host.reduceAdd x v reducesTo_S4096x64_S4096_d1 h_S_),
    TRef.unary φ.v9 φ.v10 (broadcastInDim S4096x1 ![0] bcast_S4096_S4096x1_0),
    TRef.unary φ.v8 φ.v11 (broadcastInDim S4096x1 ![] bcast_S_S4096x1),
    TRef.binary φ.v10 φ.v11 φ.v12 Host.divf,
    TRef.nullary φ.cst_3 (constant S_ .f32 0x00000000#32),
    TRef.binary φ.v8 φ.cst_3 φ.v13 (cmpf .ogt),
    TRef.nullary φ.cst_4 (constant S_ .f32 0x7FC00000#32),
    TRef.unary φ.cst_4 φ.call0.v0 id,
    TRef.unary φ.call0.v0 φ.call0.v1 (broadcastInDim S4096x1 ![] bcast_S_S4096x1),
    TRef.ternary φ.v13 φ.v12 φ.call0.v1 φ.call0.v2 (fun p a b => select (broadcastInDim S4096x1 ![] bcast_S_S4096x1 p) a b) ]

abbrev varOps2 (a0 : TRef sig ⟨S8192x64, .f32⟩) (a1 : TRef sig ⟨S_, .i32⟩) (φ : fn_var_2.Bufs) : List (HloOp τ sig (Elt F)) :=
  [ TRef.nullary φ.cst (constant S_ .f32 0x00000000#32),
    TRef.binary a0 φ.cst φ.v0 (fun x v => Host.reduceAdd x v reducesTo_S8192x64_S8192_d1 h_S_),
    TRef.unary φ.v0 φ.v1 (broadcastInDim S8192x1 ![0] bcast_S8192_S8192x1_0),
    TRef.nullary φ.cst_0 (constant S_ .f32 0x42800000#32),
    TRef.unary φ.cst_0 φ.v2 (broadcastInDim S8192x1 ![] bcast_S_S8192x1),
    TRef.binary φ.v1 φ.v2 φ.v3 Host.divf,
    TRef.unary φ.v3 φ.v4 (broadcastInDim S8192x64 ![0, 1] bcast_S8192x1_S8192x64_0_1),
    TRef.binary a0 φ.v4 φ.v5 subf,
    TRef.binary φ.v5 φ.v5 φ.v6 mulf,
    TRef.unary a1 φ.v7 (sitofp .f32),
    TRef.nullary φ.cst_1 (constant S_ .f32 0x42800000#32),
    TRef.binary φ.cst_1 φ.v7 φ.v8 subf,
    TRef.nullary φ.cst_2 (constant S_ .f32 0x00000000#32),
    TRef.binary φ.v6 φ.cst_2 φ.v9 (fun x v => Host.reduceAdd x v reducesTo_S8192x64_S8192_d1 h_S_),
    TRef.unary φ.v9 φ.v10 (broadcastInDim S8192x1 ![0] bcast_S8192_S8192x1_0),
    TRef.unary φ.v8 φ.v11 (broadcastInDim S8192x1 ![] bcast_S_S8192x1),
    TRef.binary φ.v10 φ.v11 φ.v12 Host.divf,
    TRef.nullary φ.cst_3 (constant S_ .f32 0x00000000#32),
    TRef.binary φ.v8 φ.cst_3 φ.v13 (cmpf .ogt),
    TRef.nullary φ.cst_4 (constant S_ .f32 0x7FC00000#32),
    TRef.unary φ.cst_4 φ.call0.v0 id,
    TRef.unary φ.call0.v0 φ.call0.v1 (broadcastInDim S8192x1 ![] bcast_S_S8192x1),
    TRef.ternary φ.v13 φ.v12 φ.call0.v1 φ.call0.v2 (fun p a b => select (broadcastInDim S8192x1 ![] bcast_S_S8192x1 p) a b) ]

abbrev ops0 : List (HloOp τ sig (Elt F)) :=
  [ nullary main_cst (constant S_ .f32 0x00000000#32),
    binary main_arg0 main_cst main_v0 (fun x v => Host.reduceAdd x v reducesTo_S8192x4096_S4096_d0 h_S_),
    nullary main_cst_0 (constant S_ .f32 0x358637BD#32),
    TRef.unary (.of main_cst_0) main_call0.v0 id,
    TRef.unary main_call0.v0 main_call0.v1 (broadcastInDim S4096 ![] bcast_S_S4096),
    TRef.binary main_call0.v1 (.of main_v0) main_call0.v2 maximumf,
    nullary main_cst_1 (constant S_ .f32 0x00000000#32),
    binary main_arg0 main_cst_1 main_v2 (fun x v => Host.reduceAdd x v reducesTo_S8192x4096_S8192_d1 h_S_),
    nullary main_cst_2 (constant S_ .f32 0x358637BD#32),
    TRef.unary (.of main_cst_2) main_call1.v0 id,
    TRef.unary main_call1.v0 main_call1.v1 (broadcastInDim S8192 ![] bcast_S_S8192),
    TRef.binary main_call1.v1 (.of main_v2) main_call1.v2 maximumf ]

abbrev ops0_W : List (Ref sig .tc) :=
  [main_cst, main_v0, main_cst_0, main_call0_v0, main_call0_v1, main_v1, main_cst_1, main_v2, main_cst_2, main_call1_v0, main_call1_v1, main_v3]

abbrev ops1 : List (HloOp τ sig (Elt F)) :=
  [ unary main_arg0 main_v4 (transpose S4096x8192 [1, 0] · transposes_S8192x4096_S4096x8192_1_0),
    binary main_v4 main_arg1 main_v5 (fun l r => Host.dotGeneral dot_S4096x8192_S8192x64_S4096x64_1_0_0_1_n_n none l r),
    unary main_v1 main_v6 (broadcastInDim S4096x1 ![0] bcast_S4096_S4096x1_0),
    unary main_v6 main_v7 (broadcastInDim S4096x64 ![0, 1] bcast_S4096x1_S4096x64_0_1),
    binary main_v5 main_v7 main_v8 Host.divf ]

abbrev ops1_W : List (Ref sig .tc) :=
  [main_v4, main_v5, main_v6, main_v7, main_v8]

abbrev ops2 : List (HloOp τ sig (Elt F)) :=
  [ binary main_arg2 main_v8 main_v9 (fun a b => concatenate S4096x128 1 [⟨S4096x64, a⟩, ⟨S4096x64, b⟩] concatenates_S4096x64_S4096x64_S4096x128_d1),
    unary main_arg3 main_v10 (extractStridedSlice S1x64x128 ![0, 0, 0] · slices_S2x64x128_S1x64x128_0_0_0),
    reshape main_v10 main_v11 rfl shapeCasts_S1x64x128_S64x128,
    unary main_v11 main_v12 (transpose S128x64 [1, 0] · transposes_S64x128_S128x64_1_0),
    binary main_v9 main_v12 main_v13 (fun l r => Host.dotGeneral dot_S4096x128_S128x64_S4096x64_1_0_0_1_n_n none l r),
    unary main_arg4 main_v14 (extractStridedSlice S1x64 ![0, 0] · slices_S2x64_S1x64_0_0),
    reshape main_v14 main_v15 rfl shapeCasts_S1x64_S64,
    unary main_v15 main_v16 (broadcastInDim S1x64 ![1] bcast_S64_S1x64_1),
    unary main_v16 main_v17 (broadcastInDim S4096x64 ![0, 1] bcast_S1x64_S4096x64_0_1),
    binary main_v13 main_v17 main_v18 addf,
    TRef.nullary main_call2.cst (constant S_ .f32 0x00000000#32),
    TRef.unary main_call2.cst main_call2.v0 (broadcastInDim S4096x64 ![] bcast_S_S4096x64),
    TRef.binary (.of main_v18) main_call2.v0 main_call2.v1 maximumf ]

abbrev ops2_W : List (Ref sig .tc) :=
  [main_v9, main_v10, main_v11, main_v12, main_v13, main_v14, main_v15, main_v16, main_v17, main_v18, main_call2_cst, main_call2_v0, main_v19]

abbrev ops3 : List (HloOp τ sig (Elt F)) :=
  [ unary main_arg5 main_v20 (extractStridedSlice S1x64 ![0, 0] · slices_S2x64_S1x64_0_0),
    reshape main_v20 main_v21 rfl shapeCasts_S1x64_S64,
    unary main_arg6 main_v22 (extractStridedSlice S1x64 ![0, 0] · slices_S2x64_S1x64_0_0),
    reshape main_v22 main_v23 rfl shapeCasts_S1x64_S64,
    nullary main_cst_3 (constant S_ .f32 0x00000000#32),
    binary main_v19 main_cst_3 main_v24 (fun x v => Host.reduceAdd x v reducesTo_S4096x64_S4096_d1 h_S_),
    unary main_v24 main_v25 (broadcastInDim S4096x1 ![0] bcast_S4096_S4096x1_0),
    nullary main_cst_4 (constant S_ .f32 0x42800000#32),
    unary main_cst_4 main_v26 (broadcastInDim S4096x1 ![] bcast_S_S4096x1),
    binary main_v25 main_v26 main_v27 Host.divf,
    nullary main_c (constantI S_ 32 0#32) ] ++
  varOps (.of main_v19) (.of main_c) main_call3 ++
  [ unary main_v27 main_v29 (broadcastInDim S4096x64 ![0, 1] bcast_S4096x1_S4096x64_0_1),
    binary main_v19 main_v29 main_v30 subf,
    nullary main_cst_5 (constant S_ .f32 0x3727C5AC#32),
    unary main_cst_5 main_v31 (broadcastInDim S4096x1 ![] bcast_S_S4096x1),
    binary main_v28 main_v31 main_v32 addf,
    unary main_v32 main_v33 Host.sqrt,
    unary main_v33 main_v34 (broadcastInDim S4096x64 ![0, 1] bcast_S4096x1_S4096x64_0_1),
    binary main_v30 main_v34 main_v35 Host.divf,
    unary main_v21 main_v36 (broadcastInDim S1x64 ![1] bcast_S64_S1x64_1),
    unary main_v36 main_v37 (broadcastInDim S4096x64 ![0, 1] bcast_S1x64_S4096x64_0_1),
    binary main_v35 main_v37 main_v38 mulf,
    unary main_v23 main_v39 (broadcastInDim S1x64 ![1] bcast_S64_S1x64_1),
    unary main_v39 main_v40 (broadcastInDim S4096x64 ![0, 1] bcast_S1x64_S4096x64_0_1),
    binary main_v38 main_v40 main_v41 addf,
    binary main_arg2 main_v41 main_v42 addf ]

abbrev ops3_W : List (Ref sig .tc) :=
  [main_v20, main_v21, main_v22, main_v23, main_cst_3, main_v24, main_v25, main_cst_4, main_v26, main_v27, main_c, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v28, main_v29, main_v30, main_cst_5, main_v31, main_v32, main_v33, main_v34, main_v35, main_v36, main_v37, main_v38, main_v39, main_v40, main_v41, main_v42]

abbrev ops4 : List (HloOp τ sig (Elt F)) :=
  [ binary main_arg0 main_v42 main_v43 (fun l r => Host.dotGeneral dot_S8192x4096_S4096x64_S8192x64_1_0_0_1_n_n none l r),
    unary main_v3 main_v44 (broadcastInDim S8192x1 ![0] bcast_S8192_S8192x1_0),
    unary main_v44 main_v45 (broadcastInDim S8192x64 ![0, 1] bcast_S8192x1_S8192x64_0_1),
    binary main_v43 main_v45 main_v46 Host.divf ]

abbrev ops4_W : List (Ref sig .tc) :=
  [main_v43, main_v44, main_v45, main_v46]

abbrev ops5 : List (HloOp τ sig (Elt F)) :=
  [ binary main_arg1 main_v46 main_v47 (fun a b => concatenate S8192x128 1 [⟨S8192x64, a⟩, ⟨S8192x64, b⟩] concatenates_S8192x64_S8192x64_S8192x128_d1),
    unary main_arg7 main_v48 (extractStridedSlice S1x64x128 ![0, 0, 0] · slices_S2x64x128_S1x64x128_0_0_0),
    reshape main_v48 main_v49 rfl shapeCasts_S1x64x128_S64x128,
    unary main_v49 main_v50 (transpose S128x64 [1, 0] · transposes_S64x128_S128x64_1_0),
    binary main_v47 main_v50 main_v51 (fun l r => Host.dotGeneral dot_S8192x128_S128x64_S8192x64_1_0_0_1_n_n none l r) ]

abbrev ops5_W : List (Ref sig .tc) :=
  [main_v47, main_v48, main_v49, main_v50, main_v51]

abbrev ops6 : List (HloOp τ sig (Elt F)) :=
  [ unary main_arg8 main_v52 (extractStridedSlice S1x64 ![0, 0] · slices_S2x64_S1x64_0_0),
    reshape main_v52 main_v53 rfl shapeCasts_S1x64_S64,
    unary main_v53 main_v54 (broadcastInDim S1x64 ![1] bcast_S64_S1x64_1),
    unary main_v54 main_v55 (broadcastInDim S8192x64 ![0, 1] bcast_S1x64_S8192x64_0_1),
    binary main_v51 main_v55 main_v56 addf,
    TRef.nullary main_call4.cst (constant S_ .f32 0x00000000#32),
    TRef.unary main_call4.cst main_call4.v0 (broadcastInDim S8192x64 ![] bcast_S_S8192x64),
    TRef.binary (.of main_v56) main_call4.v0 main_call4.v1 maximumf ]

abbrev ops6_W : List (Ref sig .tc) :=
  [main_v52, main_v53, main_v54, main_v55, main_v56, main_call4_cst, main_call4_v0, main_v57]

abbrev ops7 : List (HloOp τ sig (Elt F)) :=
  [ unary main_arg9 main_v58 (extractStridedSlice S1x64 ![0, 0] · slices_S2x64_S1x64_0_0),
    reshape main_v58 main_v59 rfl shapeCasts_S1x64_S64,
    unary main_arg10 main_v60 (extractStridedSlice S1x64 ![0, 0] · slices_S2x64_S1x64_0_0),
    reshape main_v60 main_v61 rfl shapeCasts_S1x64_S64,
    nullary main_cst_6 (constant S_ .f32 0x00000000#32),
    binary main_v57 main_cst_6 main_v62 (fun x v => Host.reduceAdd x v reducesTo_S8192x64_S8192_d1 h_S_),
    unary main_v62 main_v63 (broadcastInDim S8192x1 ![0] bcast_S8192_S8192x1_0),
    nullary main_cst_7 (constant S_ .f32 0x42800000#32),
    unary main_cst_7 main_v64 (broadcastInDim S8192x1 ![] bcast_S_S8192x1),
    binary main_v63 main_v64 main_v65 Host.divf,
    nullary main_c_8 (constantI S_ 32 0#32) ] ++
  varOps2 (.of main_v57) (.of main_c_8) main_call5 ++
  [ unary main_v65 main_v67 (broadcastInDim S8192x64 ![0, 1] bcast_S8192x1_S8192x64_0_1),
    binary main_v57 main_v67 main_v68 subf,
    nullary main_cst_9 (constant S_ .f32 0x3727C5AC#32),
    unary main_cst_9 main_v69 (broadcastInDim S8192x1 ![] bcast_S_S8192x1),
    binary main_v66 main_v69 main_v70 addf,
    unary main_v70 main_v71 Host.sqrt,
    unary main_v71 main_v72 (broadcastInDim S8192x64 ![0, 1] bcast_S8192x1_S8192x64_0_1),
    binary main_v68 main_v72 main_v73 Host.divf,
    unary main_v59 main_v74 (broadcastInDim S1x64 ![1] bcast_S64_S1x64_1),
    unary main_v74 main_v75 (broadcastInDim S8192x64 ![0, 1] bcast_S1x64_S8192x64_0_1),
    binary main_v73 main_v75 main_v76 mulf,
    unary main_v61 main_v77 (broadcastInDim S1x64 ![1] bcast_S64_S1x64_1),
    unary main_v77 main_v78 (broadcastInDim S8192x64 ![0, 1] bcast_S1x64_S8192x64_0_1),
    binary main_v76 main_v78 main_v79 addf,
    binary main_arg1 main_v79 main_v80 addf ]

abbrev ops7_W : List (Ref sig .tc) :=
  [main_v58, main_v59, main_v60, main_v61, main_cst_6, main_v62, main_v63, main_cst_7, main_v64, main_v65, main_c_8, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v66, main_v67, main_v68, main_cst_9, main_v69, main_v70, main_v71, main_v72, main_v73, main_v74, main_v75, main_v76, main_v77, main_v78, main_v79, main_v80]

abbrev ops8 : List (HloOp τ sig (Elt F)) :=
  [ unary main_arg0 main_v81 (transpose S4096x8192 [1, 0] · transposes_S8192x4096_S4096x8192_1_0),
    binary main_v81 main_v80 main_v82 (fun l r => Host.dotGeneral dot_S4096x8192_S8192x64_S4096x64_1_0_0_1_n_n none l r),
    unary main_v1 main_v83 (broadcastInDim S4096x1 ![0] bcast_S4096_S4096x1_0),
    unary main_v83 main_v84 (broadcastInDim S4096x64 ![0, 1] bcast_S4096x1_S4096x64_0_1),
    binary main_v82 main_v84 main_v85 Host.divf ]

abbrev ops8_W : List (Ref sig .tc) :=
  [main_v81, main_v82, main_v83, main_v84, main_v85]

abbrev ops9 : List (HloOp τ sig (Elt F)) :=
  [ binary main_v42 main_v85 main_v86 (fun a b => concatenate S4096x128 1 [⟨S4096x64, a⟩, ⟨S4096x64, b⟩] concatenates_S4096x64_S4096x64_S4096x128_d1),
    unary main_arg3 main_v87 (extractStridedSlice S1x64x128 ![1, 0, 0] · slices_S2x64x128_S1x64x128_1_0_0),
    reshape main_v87 main_v88 rfl shapeCasts_S1x64x128_S64x128,
    unary main_v88 main_v89 (transpose S128x64 [1, 0] · transposes_S64x128_S128x64_1_0),
    binary main_v86 main_v89 main_v90 (fun l r => Host.dotGeneral dot_S4096x128_S128x64_S4096x64_1_0_0_1_n_n none l r),
    unary main_arg4 main_v91 (extractStridedSlice S1x64 ![1, 0] · slices_S2x64_S1x64_1_0),
    reshape main_v91 main_v92 rfl shapeCasts_S1x64_S64,
    unary main_v92 main_v93 (broadcastInDim S1x64 ![1] bcast_S64_S1x64_1),
    unary main_v93 main_v94 (broadcastInDim S4096x64 ![0, 1] bcast_S1x64_S4096x64_0_1),
    binary main_v90 main_v94 main_v95 addf,
    TRef.nullary main_call6.cst (constant S_ .f32 0x00000000#32),
    TRef.unary main_call6.cst main_call6.v0 (broadcastInDim S4096x64 ![] bcast_S_S4096x64),
    TRef.binary (.of main_v95) main_call6.v0 main_call6.v1 maximumf ]

abbrev ops9_W : List (Ref sig .tc) :=
  [main_v86, main_v87, main_v88, main_v89, main_v90, main_v91, main_v92, main_v93, main_v94, main_v95, main_call6_cst, main_call6_v0, main_v96]

abbrev ops10 : List (HloOp τ sig (Elt F)) :=
  [ unary main_arg5 main_v97 (extractStridedSlice S1x64 ![1, 0] · slices_S2x64_S1x64_1_0),
    reshape main_v97 main_v98 rfl shapeCasts_S1x64_S64,
    unary main_arg6 main_v99 (extractStridedSlice S1x64 ![1, 0] · slices_S2x64_S1x64_1_0),
    reshape main_v99 main_v100 rfl shapeCasts_S1x64_S64,
    nullary main_cst_10 (constant S_ .f32 0x00000000#32),
    binary main_v96 main_cst_10 main_v101 (fun x v => Host.reduceAdd x v reducesTo_S4096x64_S4096_d1 h_S_),
    unary main_v101 main_v102 (broadcastInDim S4096x1 ![0] bcast_S4096_S4096x1_0),
    nullary main_cst_11 (constant S_ .f32 0x42800000#32),
    unary main_cst_11 main_v103 (broadcastInDim S4096x1 ![] bcast_S_S4096x1),
    binary main_v102 main_v103 main_v104 Host.divf,
    nullary main_c_12 (constantI S_ 32 0#32) ]

abbrev ops10_W : List (Ref sig .tc) :=
  [main_v97, main_v98, main_v99, main_v100, main_cst_10, main_v101, main_v102, main_cst_11, main_v103, main_v104, main_c_12]

abbrev ops11 : List (HloOp τ sig (Elt F)) :=
  varOps (.of main_v96) (.of main_c_12) main_call7 ++
  [ unary main_v104 main_v106 (broadcastInDim S4096x64 ![0, 1] bcast_S4096x1_S4096x64_0_1),
    binary main_v96 main_v106 main_v107 subf,
    nullary main_cst_13 (constant S_ .f32 0x3727C5AC#32),
    unary main_cst_13 main_v108 (broadcastInDim S4096x1 ![] bcast_S_S4096x1),
    binary main_v105 main_v108 main_v109 addf,
    unary main_v109 main_v110 Host.sqrt,
    unary main_v110 main_v111 (broadcastInDim S4096x64 ![0, 1] bcast_S4096x1_S4096x64_0_1),
    binary main_v107 main_v111 main_v112 Host.divf,
    unary main_v98 main_v113 (broadcastInDim S1x64 ![1] bcast_S64_S1x64_1),
    unary main_v113 main_v114 (broadcastInDim S4096x64 ![0, 1] bcast_S1x64_S4096x64_0_1),
    binary main_v112 main_v114 main_v115 mulf,
    unary main_v100 main_v116 (broadcastInDim S1x64 ![1] bcast_S64_S1x64_1),
    unary main_v116 main_v117 (broadcastInDim S4096x64 ![0, 1] bcast_S1x64_S4096x64_0_1),
    binary main_v115 main_v117 main_v118 addf,
    binary main_v42 main_v118 main_v119 addf ]

abbrev ops11_W : List (Ref sig .tc) :=
  [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v105, main_v106, main_v107, main_cst_13, main_v108, main_v109, main_v110, main_v111, main_v112, main_v113, main_v114, main_v115, main_v116, main_v117, main_v118, main_v119]

abbrev ops12 : List (HloOp τ sig (Elt F)) :=
  [ binary main_arg0 main_v119 main_v120 (fun l r => Host.dotGeneral dot_S8192x4096_S4096x64_S8192x64_1_0_0_1_n_n none l r),
    unary main_v3 main_v121 (broadcastInDim S8192x1 ![0] bcast_S8192_S8192x1_0),
    unary main_v121 main_v122 (broadcastInDim S8192x64 ![0, 1] bcast_S8192x1_S8192x64_0_1),
    binary main_v120 main_v122 main_v123 Host.divf,
    binary main_v80 main_v123 main_v124 (fun a b => concatenate S8192x128 1 [⟨S8192x64, a⟩, ⟨S8192x64, b⟩] concatenates_S8192x64_S8192x64_S8192x128_d1),
    unary main_arg7 main_v125 (extractStridedSlice S1x64x128 ![1, 0, 0] · slices_S2x64x128_S1x64x128_1_0_0),
    reshape main_v125 main_v126 rfl shapeCasts_S1x64x128_S64x128,
    unary main_v126 main_v127 (transpose S128x64 [1, 0] · transposes_S64x128_S128x64_1_0),
    binary main_v124 main_v127 main_v128 (fun l r => Host.dotGeneral dot_S8192x128_S128x64_S8192x64_1_0_0_1_n_n none l r),
    unary main_arg8 main_v129 (extractStridedSlice S1x64 ![1, 0] · slices_S2x64_S1x64_1_0),
    reshape main_v129 main_v130 rfl shapeCasts_S1x64_S64,
    unary main_v130 main_v131 (broadcastInDim S1x64 ![1] bcast_S64_S1x64_1),
    unary main_v131 main_v132 (broadcastInDim S8192x64 ![0, 1] bcast_S1x64_S8192x64_0_1),
    binary main_v128 main_v132 main_v133 addf,
    TRef.nullary main_call8.cst (constant S_ .f32 0x00000000#32),
    TRef.unary main_call8.cst main_call8.v0 (broadcastInDim S8192x64 ![] bcast_S_S8192x64),
    TRef.binary (.of main_v133) main_call8.v0 main_call8.v1 maximumf,
    unary main_arg9 main_v135 (extractStridedSlice S1x64 ![1, 0] · slices_S2x64_S1x64_1_0),
    reshape main_v135 main_v136 rfl shapeCasts_S1x64_S64,
    unary main_arg10 main_v137 (extractStridedSlice S1x64 ![1, 0] · slices_S2x64_S1x64_1_0),
    reshape main_v137 main_v138 rfl shapeCasts_S1x64_S64,
    nullary main_cst_14 (constant S_ .f32 0x00000000#32),
    binary main_v134 main_cst_14 main_v139 (fun x v => Host.reduceAdd x v reducesTo_S8192x64_S8192_d1 h_S_),
    unary main_v139 main_v140 (broadcastInDim S8192x1 ![0] bcast_S8192_S8192x1_0),
    nullary main_cst_15 (constant S_ .f32 0x42800000#32),
    unary main_cst_15 main_v141 (broadcastInDim S8192x1 ![] bcast_S_S8192x1),
    binary main_v140 main_v141 main_v142 Host.divf,
    nullary main_c_16 (constantI S_ 32 0#32) ]

abbrev ops12_W : List (Ref sig .tc) :=
  [main_v120, main_v121, main_v122, main_v123, main_v124, main_v125, main_v126, main_v127, main_v128, main_v129, main_v130, main_v131, main_v132, main_v133, main_call8_cst, main_call8_v0, main_v134, main_v135, main_v136, main_v137, main_v138, main_cst_14, main_v139, main_v140, main_cst_15, main_v141, main_v142, main_c_16]

abbrev ops13 : List (HloOp τ sig (Elt F)) :=
  varOps2 (.of main_v134) (.of main_c_16) main_call9 ++
  [ unary main_v142 main_v144 (broadcastInDim S8192x64 ![0, 1] bcast_S8192x1_S8192x64_0_1),
    binary main_v134 main_v144 main_v145 subf,
    nullary main_cst_17 (constant S_ .f32 0x3727C5AC#32),
    unary main_cst_17 main_v146 (broadcastInDim S8192x1 ![] bcast_S_S8192x1),
    binary main_v143 main_v146 main_v147 addf,
    unary main_v147 main_v148 Host.sqrt,
    unary main_v148 main_v149 (broadcastInDim S8192x64 ![0, 1] bcast_S8192x1_S8192x64_0_1),
    binary main_v145 main_v149 main_v150 Host.divf,
    unary main_v136 main_v151 (broadcastInDim S1x64 ![1] bcast_S64_S1x64_1),
    unary main_v151 main_v152 (broadcastInDim S8192x64 ![0, 1] bcast_S1x64_S8192x64_0_1),
    binary main_v150 main_v152 main_v153 mulf,
    unary main_v138 main_v154 (broadcastInDim S1x64 ![1] bcast_S64_S1x64_1),
    unary main_v154 main_v155 (broadcastInDim S8192x64 ![0, 1] bcast_S1x64_S8192x64_0_1),
    binary main_v153 main_v155 main_v156 addf,
    binary main_v80 main_v156 main_v157 addf ]

abbrev ops13_W : List (Ref sig .tc) :=
  [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v143, main_v144, main_v145, main_cst_17, main_v146, main_v147, main_v148, main_v149, main_v150, main_v151, main_v152, main_v153, main_v154, main_v155, main_v156, main_v157]

abbrev ops14 : List (HloOp τ sig (Elt F)) :=
  [ unary main_arg11 main_v158 (transpose S64x1 [1, 0] · transposes_S1x64_S64x1_1_0),
    binary main_v119 main_v158 main_v159 (fun l r => Host.dotGeneral dot_S4096x64_S64x1_S4096x1_1_0_0_1_n_n none l r) ]

abbrev ops14_W : List (Ref sig .tc) :=
  [main_v158, main_v159]

abbrev ops15 : List (HloOp τ sig (Elt F)) :=
  [ unary main_arg12 main_v160 (broadcastInDim S1x1 ![1] bcast_S1_S1x1_1),
    unary main_v160 main_v161 (broadcastInDim S4096x1 ![0, 1] bcast_S1x1_S4096x1_0_1),
    binary main_v159 main_v161 main_v162 addf,
    nullary main_cst_18 (constant S_ .f32 0x3F333333#32),
    unary main_cst_18 main_v163 (broadcastInDim S4096x1 ![] bcast_S_S4096x1),
    binary main_v163 main_v162 main_v164 mulf,
    unary main_v164 main_v165 Host.negf,
    unary main_v165 main_v166 Host.exp,
    nullary main_cst_19 (constant S_ .f32 0x3F800000#32),
    unary main_cst_19 main_v167 (broadcastInDim S4096x1 ![] bcast_S_S4096x1),
    binary main_v167 main_v166 main_v168 addf,
    nullary main_cst_20 (constant S_ .f32 0x3F800000#32),
    unary main_cst_20 main_v169 (broadcastInDim S4096x1 ![] bcast_S_S4096x1),
    binary main_v169 main_v168 main_v170 Host.divf,
    reshape main_v170 main_v171 rfl shapeCasts_S4096x1_S4096 ]

abbrev ops15_W : List (Ref sig .tc) :=
  [main_v160, main_v161, main_v162, main_cst_18, main_v163, main_v164, main_v165, main_v166, main_cst_19, main_v167, main_v168, main_cst_20, main_v169, main_v170, main_v171]

end Cert.ReferenceIdeal.Hand

end
-- ==== Proof.RefChunks.lean ====
import proofs.«110987_g5892695130345_cont_sun_m_578_16_alg».proof.Proof.RefOps

noncomputable section

namespace Cert.ReferenceIdeal.Hand

open Cert.ReferenceIdeal Idealize.ShloMosaic Idealize.ShloMosaic.StableHlo

variable {F : FTy → Type} [FloatOps F]

/-- The buffers each chunk of the operation table writes. -/
abbrev chunkW : List (List (Ref sig .tc)) :=
  [ops0_W, ops1_W, ops2_W, ops3_W, ops4_W, ops5_W, ops6_W, ops7_W, ops8_W, ops9_W, ops10_W, ops11_W, ops12_W, ops13_W, ops14_W, ops15_W]

/-- The chunks of the operation table in order, each beside the buffers it writes. -/
def chunks : List (List (HloOp τ sig (Elt F)) × List (Ref sig .tc)) :=
  [ops0, ops1, ops2, ops3, ops4, ops5, ops6, ops7, ops8, ops9, ops10, ops11, ops12, ops13, ops14, ops15].zip chunkW

/-- Of every operation: what the run asks (the first two), and what carrying a buffer past its chunk asks (the third). -/
theorem chunks_ok : ∀ c ∈ (chunks : List (List (HloOp τ sig (Elt F)) × List (Ref sig .tc))), c.1.Forall fun op =>
    op.bufs ⊆ tcRefs τ sig ∧ op.fresh = ∅ ∧ op.writes ⊆ (c.2.map (Proc.devRef (τ := τ) .tc)).toFinset := by
  refine List.forall_iff_forall_mem.mp ?_
  simp only [chunks, chunkW, ops3, ops7, ops11, ops13, varOps, varOps2, List.cons_append, List.nil_append,
    List.zip_cons_cons, List.zip_nil_right, List.Forall]
  repeat' apply And.intro
  all_goals first
    | with_reducible exact nullary_bufs_sub .. | with_reducible exact unary_bufs_sub .. | with_reducible exact binary_bufs_sub ..
    | with_reducible exact ternary_bufs_sub .. | with_reducible exact reshape_bufs_sub ..
    | exact Finset.singleton_subset_iff.mpr (List.mem_toFinset.mpr (List.mem_map_of_mem (by decide)))
    | rfl

end Cert.ReferenceIdeal.Hand

end
-- ==== Proof.RefStages.lean ====
import proofs.«110987_g5892695130345_cont_sun_m_578_16_alg».proof.ReferenceIdeal

noncomputable section

namespace Cert.ReferenceIdeal.Hand

open Idealize.ShloMosaic Cert.ReferenceIdeal

variable {F : FTy → Type} [FloatOps F] [Facts]
open Facts₀ Facts

/-- What the shapes must satisfy for the stages below to be stated over `n` rows of 64: one proof serves both row counts. -/
structure Rows (n : Nat) : Prop where
  s64 : S_.BroadcastsInDim ⟨2, ![n, 64]⟩ ![]
  s1 : S_.BroadcastsInDim ⟨2, ![n, 1]⟩ ![]
  col : (⟨1, ![n]⟩ : Shape).BroadcastsInDim ⟨2, ![n, 1]⟩ ![0]
  ofCol : (⟨2, ![n, 1]⟩ : Shape).BroadcastsInDim ⟨2, ![n, 64]⟩ ![0, 1]
  ofRow : S1x64.BroadcastsInDim ⟨2, ![n, 64]⟩ ![0, 1]
  sum : (⟨2, ![n, 64]⟩ : Shape).ReducesTo [1] ⟨1, ![n]⟩
  cat : Shape.Concatenates [(⟨2, ![n, 64]⟩ : Shape), ⟨2, ![n, 64]⟩] ⟨2, ![n, 128]⟩ 1

theorem rows4096 : Rows 4096 :=
  ⟨bcast_S_S4096x64, bcast_S_S4096x1, bcast_S4096_S4096x1_0, bcast_S4096x1_S4096x64_0_1, bcast_S1x64_S4096x64_0_1,
    reducesTo_S4096x64_S4096_d1, concatenates_S4096x64_S4096x64_S4096x128_d1⟩
theorem rows8192 : Rows 8192 :=
  ⟨bcast_S_S8192x64, bcast_S_S8192x1, bcast_S8192_S8192x1_0, bcast_S8192x1_S8192x64_0_1, bcast_S1x64_S8192x64_0_1,
    reducesTo_S8192x64_S8192_d1, concatenates_S8192x64_S8192x64_S8192x128_d1⟩

section Rows
variable {n : Nat} (R : Rows n)

/-- Negative entries replaced by zero. -/
def refRelu (x : Vec F ⟨2, ![n, 64]⟩ .f32) : Vec F ⟨2, ![n, 64]⟩ .f32 :=
  maximumf x (broadcastInDim _ ![] R.s64 (constant (F := F) S_ .f32 0x00000000#32))

/-- The column of row averages. -/
def refMean (x : Vec F ⟨2, ![n, 64]⟩ .f32) : Vec F ⟨2, ![n, 1]⟩ .f32 :=
  Host.divf
    (broadcastInDim _ ![0] R.col (Host.reduceAdd x (constant (F := F) S_ .f32 0x00000000#32) R.sum h_S_))
    (broadcastInDim _ ![] R.s1 (constant (F := F) S_ .f32 0x42800000#32))

/-- Every row shifted to average zero. -/
def refCentred (x : Vec F ⟨2, ![n, 64]⟩ .f32) : Vec F ⟨2, ![n, 64]⟩ .f32 :=
  subf x (broadcastInDim _ ![0, 1] R.ofCol (refMean R x))

/-- The divisor of the variance: the row length less the count `c`. -/
def refDof (c : Vec F S_ .i32) : Vec F S_ .f32 :=
  subf (constant (F := F) S_ .f32 0x42800000#32) (sitofp (F := F) .f32 c)

/-- The column of row variances over `refDof c`, guarded: undefined unless that divisor is positive. -/
def refVarOf (x : Vec F ⟨2, ![n, 64]⟩ .f32) (c : Vec F S_ .i32) : Vec F ⟨2, ![n, 1]⟩ .f32 :=
  select (broadcastInDim _ ![] R.s1 (cmpf .ogt (refDof (F := F) c) (constant (F := F) S_ .f32 0x00000000#32)))
    (Host.divf
      (broadcastInDim _ ![0] R.col
        (Host.reduceAdd (mulf (refCentred R x) (refCentred R x)) (constant (F := F) S_ .f32 0x00000000#32) R.sum h_S_))
      (broadcastInDim _ ![] R.s1 (refDof (F := F) c)))
    (broadcastInDim _ ![] R.s1 (constant (F := F) S_ .f32 0x7FC00000#32))

/-- One parameter row copied into each of the `n` rows. -/
def refRows (r : Vec F S64 .f32) : Vec F ⟨2, ![n, 64]⟩ .f32 :=
  broadcastInDim _ ![0, 1] R.ofRow (broadcastInDim S1x64 ![1] bcast_S64_S1x64_1 r)

/-- A message: the matrix product `B X`, row `i` divided by `deg i`. -/
def refMsg {k : Nat} (B : Vec F ⟨2, ![n, k]⟩ .f32) (X : Vec F ⟨2, ![k, 64]⟩ .f32) (deg : Vec F ⟨1, ![n]⟩ .f32) :
    Vec F ⟨2, ![n, 64]⟩ .f32 :=
  Host.divf (Host.dotGeneral (DotDims.plain n k 64) none B X)
    (broadcastInDim _ ![0, 1] R.ofCol (broadcastInDim _ ![0] R.col deg))

/-- The linear layer on `[x | msg]` with bias `b`, negatives cut off. -/
def refDense (x msg : Vec F ⟨2, ![n, 64]⟩ .f32) (wt : Vec F S128x64 .f32) (b : Vec F S64 .f32) : Vec F ⟨2, ![n, 64]⟩ .f32 :=
  refRelu R
    (addf (Host.dotGeneral (DotDims.plain n 128 64) none (concatenate ⟨2, ![n, 128]⟩ 1 [⟨_, x⟩, ⟨_, msg⟩] R.cat) wt)
      (refRows R b))

/-- Rows normalised to average zero and unit variance (floored), then scaled by `g` and shifted by `s`. -/
def refLayerNorm (h : Vec F ⟨2, ![n, 64]⟩ .f32) (g s : Vec F S64 .f32) : Vec F ⟨2, ![n, 64]⟩ .f32 :=
  addf
    (mulf
      (Host.divf (refCentred R h)
        (broadcastInDim _ ![0, 1] R.ofCol
          (Host.sqrt (addf (refVarOf R h (constantI S_ 32 0#32))
            (broadcastInDim _ ![] R.s1 (constant (F := F) S_ .f32 0x3727C5AC#32))))))
      (refRows R g))
    (refRows R s)

end Rows

/-- Column sums of the incidence matrix, kept above a small positive floor. -/
def refEdgeDeg (A : Vec F S8192x4096 .f32) : Vec F S4096 .f32 :=
  maximumf (broadcastInDim S4096 ![] bcast_S_S4096 (constant (F := F) S_ .f32 0x358637BD#32))
    (Host.reduceAdd A (constant (F := F) S_ .f32 0x00000000#32) reducesTo_S8192x4096_S4096_d0 h_S_)
/-- Row sums of the incidence matrix, kept above the same floor. -/
def refNodeDeg (A : Vec F S8192x4096 .f32) : Vec F S8192 .f32 :=
  maximumf (broadcastInDim S8192 ![] bcast_S_S8192 (constant (F := F) S_ .f32 0x358637BD#32))
    (Host.reduceAdd A (constant (F := F) S_ .f32 0x00000000#32) reducesTo_S8192x4096_S8192_d1 h_S_)

/-- Node features averaged onto each edge (the incidence matrix transposed). -/
def refEdgeMsg (A : Vec F S8192x4096 .f32) (X : Vec F S8192x64 .f32) (deg : Vec F S4096 .f32) : Vec F S4096x64 .f32 :=
  refMsg rows4096 (transpose S4096x8192 [1, 0] A transposes_S8192x4096_S4096x8192_1_0) X deg
/-- Edge features averaged onto each node. -/
def refNodeMsg (A : Vec F S8192x4096 .f32) (Y : Vec F S4096x64 .f32) (deg : Vec F S8192 .f32) : Vec F S8192x64 .f32 :=
  refMsg rows8192 A Y deg

/-- Layer `l` of a stacked weight, as a 128 × 64 matrix. -/
def refWt (W : Vec F S2x64x128 .f32) : Fin 2 → Vec F S128x64 .f32
  | 0 => transpose S128x64 [1, 0] (shapeCast S64x128 (extractStridedSlice S1x64x128 ![0, 0, 0] W slices_S2x64x128_S1x64x128_0_0_0) shapeCasts_S1x64x128_S64x128) transposes_S64x128_S128x64_1_0
  | 1 => transpose S128x64 [1, 0] (shapeCast S64x128 (extractStridedSlice S1x64x128 ![1, 0, 0] W slices_S2x64x128_S1x64x128_1_0_0) shapeCasts_S1x64x128_S64x128) transposes_S64x128_S128x64_1_0
/-- Layer `l` of a stacked bias, gain or shift. -/
def refRow (p : Vec F S2x64 .f32) : Fin 2 → Vec F S64 .f32
  | 0 => shapeCast S64 (extractStridedSlice S1x64 ![0, 0] p slices_S2x64_S1x64_0_0) shapeCasts_S1x64_S64
  | 1 => shapeCast S64 (extractStridedSlice S1x64 ![1, 0] p slices_S2x64_S1x64_1_0) shapeCasts_S1x64_S64

/-- One residual step: `x` plus the normalised linear layer of `x` beside its message, with layer `l`'s parameters. -/
def refUpdate {n : Nat} (R : Rows n) (x msg : Vec F ⟨2, ![n, 64]⟩ .f32) (W : Vec F S2x64x128 .f32) (b g s : Vec F S2x64 .f32)
    (l : Fin 2) : Vec F ⟨2, ![n, 64]⟩ .f32 :=
  addf x (refLayerNorm R (refDense R x msg (refWt W l) (refRow b l)) (refRow g l) (refRow s l))

section Net
variable (A : Vec F S8192x4096 .f32) (n0 : Vec F S8192x64 .f32) (e0 : Vec F S4096x64 .f32)
  (eW : Vec F S2x64x128 .f32) (eb eg es : Vec F S2x64 .f32)
  (nW : Vec F S2x64x128 .f32) (nb ng ns : Vec F S2x64 .f32) (dW : Vec F S1x64 .f32) (db : Vec F S1 .f32)

def refEdges1 : Vec F S4096x64 .f32 := refUpdate rows4096 e0 (refEdgeMsg A n0 (refEdgeDeg A)) eW eb eg es 0
def refNodes1 : Vec F S8192x64 .f32 :=
  refUpdate rows8192 n0 (refNodeMsg A (refEdges1 A n0 e0 eW eb eg es) (refNodeDeg A)) nW nb ng ns 0
def refEdges2 : Vec F S4096x64 .f32 :=
  refUpdate rows4096 (refEdges1 A n0 e0 eW eb eg es)
    (refEdgeMsg A (refNodes1 A n0 e0 eW eb eg es nW nb ng ns) (refEdgeDeg A)) eW eb eg es 1
/-- The linear read-out of the final edge features. -/
def refLogits : Vec F S4096x1 .f32 :=
  addf
    (Host.dotGeneral dot_S4096x64_S64x1_S4096x1_1_0_0_1_n_n none (refEdges2 A n0 e0 eW eb eg es nW nb ng ns)
      (transpose S64x1 [1, 0] dW transposes_S1x64_S64x1_1_0))
    (broadcastInDim S4096x1 ![0, 1] bcast_S1x1_S4096x1_0_1 (broadcastInDim S1x1 ![1] bcast_S1_S1x1_1 db))
/-- What the reference returns: `1 / (1 + exp (-(0.7 · logit)))` for each edge. -/
def refOut : Vec F S4096 .f32 :=
  shapeCast S4096
    (Host.divf (broadcastInDim S4096x1 ![] bcast_S_S4096x1 (constant (F := F) S_ .f32 0x3F800000#32))
      (addf (broadcastInDim S4096x1 ![] bcast_S_S4096x1 (constant (F := F) S_ .f32 0x3F800000#32))
        (Host.exp (Host.negf
          (mulf (broadcastInDim S4096x1 ![] bcast_S_S4096x1 (constant (F := F) S_ .f32 0x3F333333#32))
            (refLogits A n0 e0 eW eb eg es nW nb ng ns dW db))))))
    shapeCasts_S4096x1_S4096

end Net

end Cert.ReferenceIdeal.Hand

end
-- ==== Proof.RefMain.lean ====
import proofs.«110987_g5892695130345_cont_sun_m_578_16_alg».proof.Proof.RefOps
import Idealize.ShloMosaic.Lib.Pipeline.Regions

noncomputable section

namespace Cert.ReferenceIdeal.Hand

open Cert.ReferenceIdeal Idealize.ShloMosaic Idealize.ShloMosaic.StableHlo

variable {F : FTy → Type} [FloatOps F]

def opsW0 : List (HloOp τ sig (Elt F)) := ops0 ++ ops1 ++ ops2 ++ ops3 ++ ops4 ++ ops5

def opsW1 : List (HloOp τ sig (Elt F)) := ops6 ++ ops7 ++ ops8 ++ ops9 ++ ops10

def opsW2 : List (HloOp τ sig (Elt F)) := ops11 ++ ops12 ++ ops13 ++ ops14

def opsW3 : List (HloOp τ sig (Elt F)) := ops15

def ops : List (HloOp τ sig (Elt F)) := opsW0 ++ (opsW1 ++ (opsW2 ++ opsW3))

theorem main_part0_eq (c : Dev nD) : main_part0 (F := F) c = seq opsW0 := by
  chain_rfl

theorem main_part1_eq (c : Dev nD) : main_part1 (F := F) c = seq opsW1 := by
  chain_rfl

theorem main_part2_eq (c : Dev nD) : main_part2 (F := F) c = seq opsW2 := by
  chain_rfl

theorem main_part3_eq (c : Dev nD) : main_part3 (F := F) c = seq opsW3 := by
  chain_rfl

theorem main_eq (c : Dev nD) : main (F := F) c = seq ops := by
  unfold ops
  rw [seq_append, seq_append, seq_append, ← main_part0_eq c, ← main_part1_eq c, ← main_part2_eq c, ← main_part3_eq c]
  rfl

end Cert.ReferenceIdeal.Hand

end
-- ==== Proof.RefVals.lean ====
import proofs.«110987_g5892695130345_cont_sun_m_578_16_alg».proof.Proof.RefChunks
import proofs.«110987_g5892695130345_cont_sun_m_578_16_alg».proof.Proof.RefStages
import proofs.«110987_g5892695130345_cont_sun_m_578_16_alg».proof.Proof.RefMain
import Idealize.ShloMosaic.Lib.Pipeline.Frame

noncomputable section

namespace Cert.ReferenceIdeal.Hand

open Cert.ReferenceIdeal Idealize.ShloMosaic Idealize.ShloMosaic.StableHlo

variable {F : FTy → Type} [FloatOps F]

variable (V : Valuation τ sig (Elt F))

/-- The buffer contents at cut `k` of the operation table: after its first `k` chunks. -/
def val : Nat → Valuation τ sig (Elt F)
  | 0 => V
  | k + 1 => match (chunks (F := F))[k]? with
    | some c => after c.1 (val k)
    | none => val k

/-- A buffer no chunk from `j` on writes is at every later cut what it is at cut `j`. -/
theorem val_stable {j k : Nat} (hjk : j ≤ k) {r : Ref sig .tc} (hr : r ∉ (chunkW.drop j).flatten) :
    val V k (Proc.devRef .tc r) = val V j (Proc.devRef .tc r) := by
  induction k, hjk using Nat.le_induction with
  | base => rfl
  | succ k hk ih =>
    rw [← ih, val]
    cases hc : (chunks (F := F))[k]? with
    | none => rfl
    | some c =>
      have hm : c ∈ (chunks (F := F)).drop j :=
        List.mem_of_getElem? (i := k - j) (by rw [List.getElem?_drop, Nat.add_sub_cancel' hk, hc])
      refine after_of_writes_sub c.1 _ ((chunks_ok c (List.mem_of_mem_drop hm)).imp fun _ h => h.2.2)
        fun h => hr (List.mem_flatten.mpr ⟨c.2, ?_, h⟩)
      have h' := List.mem_map_of_mem (f := Prod.snd) hm
      rwa [List.map_drop] at h'

/-- What the launch found in buffer `r`. -/
abbrev arr (r : Ref sig .tc) := V (Proc.devRef .tc r)

/-- An argument array is written by no chunk: at every cut it is what the launch found. -/
theorem val_arg {k : Nat} {r : Ref sig .tc} (hr : r ∉ chunkW.flatten) :
    val V k (no_index (Proc.devRef .tc r)) = arr V r :=
  val_stable V (Nat.zero_le k) hr

/-- Each lemma from here on: at every cut after the chunks that compute it, the named buffer holds its stage of the argument arrays. -/
theorem val_v1 {k : Nat} (hk : 1 ≤ k) : val V k (no_index (Proc.devRef .tc main_v1)) = refEdgeDeg (arr V main_arg0) :=
  (val_stable V hk (by decide)).trans <| by
    show after ops0 (val V 0) _ = _
    after_results_simp
    simp (disch := decide) only [val_arg, TRef.ofBuf, TRef.toBuf, cast_eq]
    rfl

theorem val_v3 {k : Nat} (hk : 1 ≤ k) : val V k (no_index (Proc.devRef .tc main_v3)) = refNodeDeg (arr V main_arg0) :=
  (val_stable V hk (by decide)).trans <| by
    show after ops0 (val V 0) _ = _
    after_results_simp
    simp (disch := decide) only [val_arg, TRef.ofBuf, TRef.toBuf, cast_eq]
    rfl

theorem val_v8 {k : Nat} (hk : 2 ≤ k) : val V k (no_index (Proc.devRef .tc main_v8)) = refEdgeMsg (arr V main_arg0) (arr V main_arg1) (refEdgeDeg (arr V main_arg0)) :=
  (val_stable V hk (by decide)).trans <| by
    show after ops1 (val V 1) _ = _
    after_results_simp
    simp (disch := decide) only [val_arg, val_v1, TRef.ofBuf, TRef.toBuf, cast_eq]
    rfl

theorem val_v42 {k : Nat} (hk : 4 ≤ k) : val V k (no_index (Proc.devRef .tc main_v42)) = refEdges1 (arr V main_arg0) (arr V main_arg1) (arr V main_arg2) (arr V main_arg3) (arr V main_arg4) (arr V main_arg5) (arr V main_arg6) :=
  (val_stable V hk (by decide)).trans <| by
    show after ops3 (after ops2 (val V 2)) _ = _
    simp only [ops3, after_append]
    after_results_simp
    simp (disch := decide) only [val_arg, val_v8, TRef.ofBuf, TRef.toBuf, cast_eq]
    rw [val_v8 V (k := 2) (by decide), val_arg V (k := 2) (r := main_arg2) (by decide)]
    rfl

theorem val_v46 {k : Nat} (hk : 5 ≤ k) : val V k (no_index (Proc.devRef .tc main_v46)) = refNodeMsg (arr V main_arg0) (refEdges1 (arr V main_arg0) (arr V main_arg1) (arr V main_arg2) (arr V main_arg3) (arr V main_arg4) (arr V main_arg5) (arr V main_arg6)) (refNodeDeg (arr V main_arg0)) :=
  (val_stable V hk (by decide)).trans <| by
    show after ops4 (val V 4) _ = _
    after_results_simp
    simp (disch := decide) only [val_arg, val_v42, val_v3, TRef.ofBuf, TRef.toBuf, cast_eq]
    rfl

theorem val_v80 {k : Nat} (hk : 8 ≤ k) : val V k (no_index (Proc.devRef .tc main_v80)) = refNodes1 (arr V main_arg0) (arr V main_arg1) (arr V main_arg2) (arr V main_arg3) (arr V main_arg4) (arr V main_arg5) (arr V main_arg6) (arr V main_arg7) (arr V main_arg8) (arr V main_arg9) (arr V main_arg10) :=
  (val_stable V hk (by decide)).trans <| by
    show after ops7 (after ops6 (after ops5 (val V 5))) _ = _
    simp only [ops7, after_append]
    after_results_simp
    simp (disch := decide) only [val_arg, val_v46, TRef.ofBuf, TRef.toBuf, cast_eq]
    rw [val_v46 V (k := 5) (by decide), val_arg V (k := 5) (r := main_arg1) (by decide)]
    rfl

theorem val_v85 {k : Nat} (hk : 9 ≤ k) : val V k (no_index (Proc.devRef .tc main_v85)) = refEdgeMsg (arr V main_arg0) (refNodes1 (arr V main_arg0) (arr V main_arg1) (arr V main_arg2) (arr V main_arg3) (arr V main_arg4) (arr V main_arg5) (arr V main_arg6) (arr V main_arg7) (arr V main_arg8) (arr V main_arg9) (arr V main_arg10)) (refEdgeDeg (arr V main_arg0)) :=
  (val_stable V hk (by decide)).trans <| by
    show after ops8 (val V 8) _ = _
    after_results_simp
    simp (disch := decide) only [val_arg, val_v80, val_v1, TRef.ofBuf, TRef.toBuf, cast_eq]
    rfl

theorem val_v119 {k : Nat} (hk : 12 ≤ k) : val V k (no_index (Proc.devRef .tc main_v119)) = refEdges2 (arr V main_arg0) (arr V main_arg1) (arr V main_arg2) (arr V main_arg3) (arr V main_arg4) (arr V main_arg5) (arr V main_arg6) (arr V main_arg7) (arr V main_arg8) (arr V main_arg9) (arr V main_arg10) :=
  (val_stable V hk (by decide)).trans <| by
    show after ops11 (after ops10 (after ops9 (val V 9))) _ = _
    simp only [ops11, after_append]
    after_results_simp
    simp (disch := decide) only [val_arg, val_v42, val_v85, TRef.ofBuf, TRef.toBuf, cast_eq]
    rw [val_v42 V (k := 9) (by decide), val_v85 V (k := 9) (by decide)]
    rfl

theorem val_v171 {k : Nat} (hk : 16 ≤ k) : val V k (no_index (Proc.devRef .tc main_v171)) = refOut (arr V main_arg0) (arr V main_arg1) (arr V main_arg2) (arr V main_arg3) (arr V main_arg4) (arr V main_arg5) (arr V main_arg6) (arr V main_arg7) (arr V main_arg8) (arr V main_arg9) (arr V main_arg10) (arr V main_arg11) (arr V main_arg12) :=
  (val_stable V hk (by decide)).trans <| by
    show after ops15 (after ops14 (val V 14)) _ = _
    after_results_simp
    simp (disch := decide) only [val_arg, val_v119, TRef.ofBuf, TRef.toBuf, cast_eq]
    rfl

/-- The fold of the whole line is the last cut's contents. -/
theorem after_ops (b : DevRef τ sig) : after ops V b = val V 16 b := by
  unfold ops opsW0 opsW1 opsW2 opsW3
  simp only [after_append]
  rfl

end Cert.ReferenceIdeal.Hand

end
-- ==== Proof.RefRun.lean ====
import proofs.«110987_g5892695130345_cont_sun_m_578_16_alg».proof.Proof.RefVals
import Idealize.ShloMosaic.PureOps.Ideal

noncomputable section

namespace Cert.ReferenceIdeal.Hand

open Cert.ReferenceIdeal Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- An operation of @main is an operation of one of the chunks. -/
theorem ops_ok {op : HloOp τ sig (Elt F)} (h : op ∈ (ops : List (HloOp τ sig (Elt F)))) :
    op.bufs ⊆ tcRefs τ sig ∧ op.fresh = ∅ := by
  have e : (ops : List (HloOp τ sig (Elt F))) = chunks.flatMap Prod.fst := by
    simp only [ops, opsW0, opsW1, opsW2, opsW3, chunks, List.zip_cons_cons, List.zip_nil_right, List.flatMap_cons,
      List.flatMap_nil, List.append_assoc, List.append_nil]
  obtain ⟨c, hc, ho⟩ := List.mem_flatMap.mp (e ▸ h)
  have := List.forall_iff_forall_mem.mp (chunks_ok c hc) op ho
  exact ⟨this.1, this.2.1⟩

/-- The reference runs to its end with the result at `refOut` of the arguments and the arguments as launched: the straight-line run, read at the last cut. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v171)
        = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun s h c =>
      have keep (r : Ref sig .tc) (hr : r ∉ chunkW.flatten) :
          s.2.mem ((c.tc : Thread nD τ).loc r) = m ((c.tc : Thread nD τ).loc r) :=
        (h c r).trans ((after_ops _ _).trans (val_arg _ hr))
      ⟨(h c main_v171).trans ((after_ops _ _).trans (val_v171 _ (Nat.le_refl 16))),
        keep main_arg0 (by decide), keep main_arg1 (by decide), keep main_arg2 (by decide), keep main_arg3 (by decide),
        keep main_arg4 (by decide), keep main_arg5 (by decide), keep main_arg6 (by decide), keep main_arg7 (by decide),
        keep main_arg8 (by decide), keep main_arg9 (by decide), keep main_arg10 (by decide), keep main_arg11 (by decide),
        keep main_arg12 (by decide)⟩)
    (run_seq scopedRefs_eq scopedSems_eq defs main (fun _ => ops) main_eq
      (fun _ => List.forall_iff_forall_mem.mpr fun _ h => (ops_ok h).1) m ρ fun _ _ h => (ops_ok h).2)

end Cert.ReferenceIdeal.Hand

end
-- ==== Proof.RefIndex.lean ====
import Idealize.ShloMosaic.PureOps.Ideal.Laws
import Idealize.ShloMosaic.Lib.ValueLayout
import Idealize.ShloMosaic.Lib.IdealHost
import Idealize.ShloMosaic.Lib.StackMember

namespace Cert.RefIndex

open Idealize.ShloMosaic Idealize.ShloMosaic.ValueIdx
open scoped BigOperators

variable {α : Type}

/-- An index below `n` is itself unless `n = 1`, where it is `0`. -/
theorem bcast_val {n : Nat} (i : Fin n) : i.val = if n = 1 then 0 else i.val := by
  have := i.isLt
  split <;> omega

/-- Entry `(i, 0)` of a vector laid out as a column is its entry `i`. -/
theorem bcast_col {n : Nat} (h : (⟨1, ![n]⟩ : Shape).BroadcastsInDim ⟨2, ![n, 1]⟩ ![0])
    (x : (⟨1, ![n]⟩ : Shape).Idx → α) (i : Fin n) (z : Fin 1) :
    broadcastInDim ⟨2, ![n, 1]⟩ ![0] h x (ix2 i z) = x (ix1 i) :=
  broadcastInDim_apply _ h x _ (ix1 i) fun a => match a with | ⟨0, _⟩ => bcast_val i

/-- Entry `(i, j)` of a column copied `m` times sideways is the column's entry `i`. -/
theorem bcast_of_col {n m : Nat} (h : (⟨2, ![n, 1]⟩ : Shape).BroadcastsInDim ⟨2, ![n, m]⟩ ![0, 1])
    (x : (⟨2, ![n, 1]⟩ : Shape).Idx → α) (i : Fin n) (j : Fin m) :
    broadcastInDim ⟨2, ![n, m]⟩ ![0, 1] h x (ix2 i j) = x (ix2 i 0) :=
  broadcastInDim_apply _ h x _ (ix2 i 0) fun a => match a with | ⟨0, _⟩ => bcast_val i | ⟨1, _⟩ => rfl

/-- Entry `(0, j)` of a vector laid out as a row is its entry `j`. -/
theorem bcast_row {m : Nat} (h : (⟨1, ![m]⟩ : Shape).BroadcastsInDim ⟨2, ![1, m]⟩ ![1])
    (x : (⟨1, ![m]⟩ : Shape).Idx → α) (z : Fin 1) (j : Fin m) :
    broadcastInDim ⟨2, ![1, m]⟩ ![1] h x (ix2 z j) = x (ix1 j) :=
  broadcastInDim_apply _ h x _ (ix1 j) fun a => match a with | ⟨0, _⟩ => bcast_val j

/-- Entry `(i, j)` of a row copied `n` times downwards is the row's entry `j`. -/
theorem bcast_of_row {n m : Nat} (h : (⟨2, ![1, m]⟩ : Shape).BroadcastsInDim ⟨2, ![n, m]⟩ ![0, 1])
    (x : (⟨2, ![1, m]⟩ : Shape).Idx → α) (i : Fin n) (j : Fin m) :
    broadcastInDim ⟨2, ![n, m]⟩ ![0, 1] h x (ix2 i j) = x (ix2 0 j) :=
  broadcastInDim_apply _ h x _ (ix2 0 j) fun a => match a with | ⟨0, _⟩ => rfl | ⟨1, _⟩ => bcast_val j

/-- Flattening an `n × 1` array keeps entry `i`. -/
theorem cast_col {n : Nat} (h : (⟨2, ![n, 1]⟩ : Shape).ShapeCasts ⟨1, ![n]⟩)
    (x : (⟨2, ![n, 1]⟩ : Shape).Idx → α) (i : Fin n) :
    shapeCast ⟨1, ![n]⟩ x h (ix1 i) = x (ix2 i 0) := by
  refine shapeCast_apply x h _ (ix2 i 0) ?_
  rw [Shape.rowMajor_val_two, Shape.rowMajor_val_one]
  exact Nat.mul_one _

/-- Cutting row `off` out of an `R × m` array and flattening it gives that row's entries. -/
theorem row_of {R m : Nat} (off : Fin R)
    (hs : (⟨2, ![R, m]⟩ : Shape).Slices ![off.val, 0] ⟨2, ![1, m]⟩) (hc : (⟨2, ![1, m]⟩ : Shape).ShapeCasts ⟨1, ![m]⟩)
    (p : (⟨2, ![R, m]⟩ : Shape).Idx → α) (j : Fin m) :
    shapeCast ⟨1, ![m]⟩ (extractStridedSlice ⟨2, ![1, m]⟩ ![off.val, 0] p hs) hc (ix1 j) = p (ix2 off j) := by
  rw [shapeCast_1a_a_apply, slice2_axis0_apply _ _ _ _ _ off rfl]

/-- Cutting matrix `off` out of a stack, dropping the unit axis and transposing swaps the last two coordinates. -/
theorem matT_of {R r c : Nat} (off : Fin R)
    (hs : (⟨3, ![R, r, c]⟩ : Shape).Slices ![off.val, 0, 0] ⟨3, ![1, r, c]⟩)
    (hc : (⟨3, ![1, r, c]⟩ : Shape).ShapeCasts ⟨2, ![r, c]⟩)
    (ht : (⟨2, ![r, c]⟩ : Shape).Transposes [1, 0] ⟨2, ![c, r]⟩)
    (W : (⟨3, ![R, r, c]⟩ : Shape).Idx → α) (k : Fin c) (j : Fin r) :
    transpose ⟨2, ![c, r]⟩ [1, 0] (shapeCast ⟨2, ![r, c]⟩ (extractStridedSlice ⟨3, ![1, r, c]⟩ ![off.val, 0, 0] W hs) hc) ht (ix2 k j)
      = W (ix3 off j k) := by
  rw [transpose_ix2_apply, shapeCast_1ab_ab_apply]
  exact extractStridedSlice_apply _ W hs _ (ix3 off j k) fun a => match a with
    | ⟨0, _⟩ => rfl
    | ⟨1, _⟩ => (Nat.zero_add _).symm
    | ⟨2, _⟩ => (Nat.zero_add _).symm

/-- Columns below 64 of `[x | y]` are `x`'s. -/
theorem concat_left {n : Nat}
    (h : Shape.Concatenates [(⟨2, ![n, 64]⟩ : Shape), ⟨2, ![n, 64]⟩] ⟨2, ![n, 128]⟩ 1)
    (x y : (⟨2, ![n, 64]⟩ : Shape).Idx → α) (i : Fin n) (k : Fin 128) (hk : k.val < 64) :
    concatenate ⟨2, ![n, 128]⟩ 1 [⟨⟨2, ![n, 64]⟩, x⟩, ⟨⟨2, ![n, 64]⟩, y⟩] h (ix2 i k) = x (ix2 i ⟨k.val, hk⟩) :=
  concatenate_pair_apply_left 1 x y h _ rfl (ix2 i ⟨k.val, hk⟩) fun b => match b with
    | ⟨0, _⟩ => rfl
    | ⟨1, _⟩ => rfl

/-- Columns from 64 on of `[x | y]` are `y`'s, shifted by 64. -/
theorem concat_right {n : Nat}
    (h : Shape.Concatenates [(⟨2, ![n, 64]⟩ : Shape), ⟨2, ![n, 64]⟩] ⟨2, ![n, 128]⟩ 1)
    (x y : (⟨2, ![n, 64]⟩ : Shape).Idx → α) (i : Fin n) (k : Fin 128) (hk : ¬ k.val < 64) :
    concatenate ⟨2, ![n, 128]⟩ 1 [⟨⟨2, ![n, 64]⟩, x⟩, ⟨⟨2, ![n, 64]⟩, y⟩] h (ix2 i k)
      = y (ix2 i ⟨k.val - 64, by have := k.isLt; omega⟩) := by
  refine concatenate_pair_apply_right 1 x y h _ rfl rfl (ix2 i ⟨k.val - 64, by have := k.isLt; omega⟩) (fun b hb => ?_) ?_
  · match b with
    | ⟨0, _⟩ => rfl
    | ⟨1, _⟩ => exact absurd rfl hb
  · show k.val - 64 + 64 = k.val
    omega

/-- A reduction along the second axis is, at `i`, the initial value plus the sum of row `i`. -/
theorem sum_rows {n m : Nat} (h : (⟨2, ![n, m]⟩ : Shape).ReducesTo [1] ⟨1, ![n]⟩)
    (x : (⟨2, ![n, m]⟩ : Shape).Idx → EReal) (init : EReal) (i : Fin n) :
    Ideal.hostReduceAdd h x init (ix1 i) = init + ∑ c : Fin m, x (ix2 i c) := by
  rw [Ideal.hostReduceAdd_single h (h.elim fun e hs => ⟨e, Nat.one_pos, hs⟩)]
  congr 1
  refine Finset.sum_congr rfl fun c _ => congrArg x ?_
  funext a; apply Fin.ext
  match a with
  | ⟨0, _⟩ => rfl
  | ⟨1, _⟩ => rfl

/-- A reduction along the first axis is, at `j`, the initial value plus the sum of column `j`. -/
theorem sum_cols {n m : Nat} (h : (⟨2, ![n, m]⟩ : Shape).ReducesTo [0] ⟨1, ![m]⟩)
    (x : (⟨2, ![n, m]⟩ : Shape).Idx → EReal) (init : EReal) (j : Fin m) :
    Ideal.hostReduceAdd h x init (ix1 j) = init + ∑ r : Fin n, x (ix2 r j) := by
  rw [Ideal.hostReduceAdd_single h (h.elim fun e hs => ⟨e, Nat.one_pos, hs⟩)]
  congr 1
  refine Finset.sum_congr rfl fun c _ => congrArg x ?_
  funext a; apply Fin.ext
  match a with
  | ⟨0, _⟩ => rfl
  | ⟨1, _⟩ => rfl

end Cert.RefIndex
-- ==== Proof.RefMath.lean ====
import proofs.«110987_g5892695130345_cont_sun_m_578_16_alg».proof.Proof.RefStages
import proofs.«110987_g5892695130345_cont_sun_m_578_16_alg».proof.Proof.RefIndex
import proofs.«110987_g5892695130345_cont_sun_m_578_16_alg».proof.Proof.Spec
import proofs.«110987_g5892695130345_cont_sun_m_578_16_alg».proof.Proof.LibExtendedReals

noncomputable section

namespace Cert.ReferenceIdeal.Hand

open Idealize.ShloMosaic Idealize.ShloMosaic.ValueIdx Idealize.ShloMosaic.StackMember Cert.ReferenceIdeal Cert.RefIndex
open scoped BigOperators

variable [Facts]
open Facts₀ Facts

theorem refEdgeDeg_apply (A : Vec Ideal S8192x4096 .f32) (e : Fin 4096) :
    refEdgeDeg A (ix1 e) = Cert.Spec.edgeDeg A e := by
  unfold refEdgeDeg Cert.Spec.edgeDeg Cert.Spec.degFloor
  rw [maximumf_apply, broadcastInDim_scalar_apply, constant_apply, hostReduceAdd_apply,
    sum_cols reducesTo_S8192x4096_S4096_d0, constant_apply, Ideal.ofBits_zero_f32, zero_add]

theorem refNodeDeg_apply (A : Vec Ideal S8192x4096 .f32) (n : Fin 8192) :
    refNodeDeg A (ix1 n) = Cert.Spec.nodeDeg A n := by
  unfold refNodeDeg Cert.Spec.nodeDeg Cert.Spec.degFloor
  rw [maximumf_apply, broadcastInDim_scalar_apply, constant_apply, hostReduceAdd_apply,
    sum_rows reducesTo_S8192x4096_S8192_d1, constant_apply, Ideal.ofBits_zero_f32, zero_add]

theorem refWt_fun (W : Vec Ideal S2x64x128 .f32) (l : Fin 2) :
    (fun (k : Fin 128) (j : Fin 64) => refWt W l (ix2 k j)) = Cert.Spec.weightT W l := by
  funext k j
  match l with
  | 0 => exact matT_of (0 : Fin 2) slices_S2x64x128_S1x64x128_0_0_0 shapeCasts_S1x64x128_S64x128 transposes_S64x128_S128x64_1_0 W k j
  | 1 => exact matT_of (1 : Fin 2) slices_S2x64x128_S1x64x128_1_0_0 shapeCasts_S1x64x128_S64x128 transposes_S64x128_S128x64_1_0 W k j

theorem refRow_fun (p : Vec Ideal S2x64 .f32) (l : Fin 2) :
    (fun (j : Fin 64) => refRow p l (ix1 j)) = Cert.Spec.rowOf p l := by
  funext j
  match l with
  | 0 => exact row_of (0 : Fin 2) slices_S2x64_S1x64_0_0 shapeCasts_S1x64_S64 p j
  | 1 => exact row_of (1 : Fin 2) slices_S2x64_S1x64_1_0 shapeCasts_S1x64_S64 p j

theorem hostSqrt_apply {s : Shape} {φ : FTy} (a : FVec Ideal s φ) (i : s.Idx) : Host.sqrt a i = Ideal.sqrt (a i) := rfl
theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-- At count zero the variance's divisor is the row length, 64. -/
theorem refDof_zero : refDof (F := Ideal) (constantI S_ 32 0#32) ix0 = Ideal.ofBits .f32 0x42800000#32 := by
  unfold refDof
  rw [subf_apply, constant_apply, sitofp_apply]
  show Ideal.ofBits .f32 0x42800000#32 - (((constantI S_ 32 0#32 ix0 : BitVec 32).toInt : ℝ) : EReal) = _
  simp [constantI]

/-- So the variance's guard holds and its defined branch is taken. -/
theorem dof_pos :
    FloatOps.cmpf (F := Ideal) .ogt (Ideal.ofBits .f32 0x42800000#32) (Ideal.ofBits .f32 0x00000000#32) = 1#1 := by
  show Ideal.cmp .ogt _ _ = 1#1
  unfold Ideal.cmp
  rw [Ideal.ofBits_zero_f32, Cert.LibEReal.ofBits_sixtyfour]
  have : (0 : EReal) < ((64 : ℝ) : EReal) := by exact_mod_cast (by norm_num : (0 : ℝ) < 64)
  simp [this]

section Rows
variable {n : Nat} (R : Rows n)

theorem refMsg_apply {k : Nat} (B : Vec Ideal ⟨2, ![n, k]⟩ .f32) (X : Vec Ideal ⟨2, ![k, 64]⟩ .f32)
    (deg : Vec Ideal ⟨1, ![n]⟩ .f32) (i : Fin n) (j : Fin 64) :
    refMsg R B X deg (ix2 i j) = Ideal.div (∑ c : Fin k, B (ix2 i c) * X (ix2 c j)) (deg (ix1 i)) := by
  unfold refMsg
  rw [hostDivf_apply, bcast_of_col, bcast_col, dotGeneral_plain_apply]

theorem refRows_apply (r : Vec Ideal S64 .f32) (i : Fin n) (j : Fin 64) : refRows R r (ix2 i j) = r (ix1 j) := by
  unfold refRows
  rw [bcast_of_row, bcast_row]

theorem concat_apply (x y : Vec Ideal ⟨2, ![n, 64]⟩ .f32) (i : Fin n) (k : Fin 128) :
    concatenate ⟨2, ![n, 128]⟩ 1 [⟨_, x⟩, ⟨_, y⟩] R.cat (ix2 i k)
      = Cert.Spec.beside (fun j => x (ix2 i j)) (fun j => y (ix2 i j)) k := by
  unfold Cert.Spec.beside
  split
  · next h => exact concat_left _ x y i k h
  · next h => exact concat_right _ x y i k h

theorem refDense_apply (x msg : Vec Ideal ⟨2, ![n, 64]⟩ .f32) (wt : Vec Ideal S128x64 .f32) (b : Vec Ideal S64 .f32)
    (i : Fin n) (j : Fin 64) :
    refDense R x msg wt b (ix2 i j)
      = Cert.Spec.dense (Cert.Spec.beside (fun j => x (ix2 i j)) (fun j => msg (ix2 i j)))
          (fun k j => wt (ix2 k j)) (fun j => b (ix1 j)) j := by
  unfold refDense refRelu Cert.Spec.dense Cert.Spec.nought
  rw [maximumf_apply, broadcastInDim_scalar_apply, constant_apply, addf_apply, refRows_apply, dotGeneral_plain_apply]
  exact congrArg (max · _) (congrArg (· + _) (Finset.sum_congr rfl fun k _ => by rw [concat_apply R]))

theorem refMean_apply (h : Vec Ideal ⟨2, ![n, 64]⟩ .f32) (i : Fin n) (z : Fin 1) :
    refMean R h (ix2 i z) = Cert.Spec.mean (fun j => h (ix2 i j)) := by
  unfold refMean Cert.Spec.mean Cert.Spec.width
  rw [hostDivf_apply, bcast_col, broadcastInDim_scalar_apply, constant_apply, hostReduceAdd_apply,
    sum_rows R.sum, constant_apply, Ideal.ofBits_zero_f32, zero_add]

theorem refCentred_apply (h : Vec Ideal ⟨2, ![n, 64]⟩ .f32) (i : Fin n) (j : Fin 64) :
    refCentred R h (ix2 i j) = Cert.Spec.centred (fun j => h (ix2 i j)) j := by
  unfold refCentred Cert.Spec.centred
  rw [subf_apply, bcast_of_col, refMean_apply]

theorem refVar_apply (h : Vec Ideal ⟨2, ![n, 64]⟩ .f32) (i : Fin n) (z : Fin 1) :
    refVarOf R h (constantI S_ 32 0#32) (ix2 i z) = Cert.Spec.variance (fun j => h (ix2 i j)) := by
  unfold refVarOf Cert.Spec.variance Cert.Spec.width
  rw [select_apply, broadcastInDim_scalar_apply, cmpf_apply, refDof_zero, constant_apply, dof_pos, select_one,
    hostDivf_apply, bcast_col, broadcastInDim_scalar_apply, refDof_zero, hostReduceAdd_apply,
    sum_rows R.sum, constant_apply, Ideal.ofBits_zero_f32, zero_add]
  simp only [mulf_apply, refCentred_apply]

theorem refLayerNorm_apply (h : Vec Ideal ⟨2, ![n, 64]⟩ .f32) (g s : Vec Ideal S64 .f32) (i : Fin n) (j : Fin 64) :
    refLayerNorm R h g s (ix2 i j)
      = Cert.Spec.layerNorm (fun j => h (ix2 i j)) (fun j => g (ix1 j)) (fun j => s (ix1 j)) j := by
  have hv : 0 < Cert.Spec.variance (fun j => h (ix2 i j)) + Cert.Spec.varFloor := by
    unfold Cert.Spec.variance Cert.Spec.width Cert.Spec.varFloor
    exact Cert.LibEReal.variance_pos _
  unfold refLayerNorm Cert.Spec.layerNorm
  rw [addf_apply, mulf_apply, hostDivf_apply, refRows_apply, refRows_apply, bcast_of_col, refCentred_apply,
    hostSqrt_apply, addf_apply, refVar_apply, broadcastInDim_scalar_apply, constant_apply,
    Cert.LibEReal.mul_rsqrt _ _ hv]
  rfl

/-- Row `i` of a residual step is the specification's update of row `i`, for either row count. -/
theorem refUpdate_apply (x msg : Vec Ideal ⟨2, ![n, 64]⟩ .f32) (W : Vec Ideal S2x64x128 .f32) (b g s : Vec Ideal S2x64 .f32)
    (l : Fin 2) (i : Fin n) (j : Fin 64) :
    refUpdate R x msg W b g s l (ix2 i j)
      = Cert.Spec.update (fun j => x (ix2 i j)) (fun j => msg (ix2 i j))
          (Cert.Spec.weightT W l) (Cert.Spec.rowOf b l) (Cert.Spec.rowOf g l) (Cert.Spec.rowOf s l) j := by
  unfold refUpdate Cert.Spec.update
  rw [addf_apply, refLayerNorm_apply]
  simp only [refDense_apply, refWt_fun, refRow_fun]

end Rows

theorem refEdgeMsg_fun (A : Vec Ideal S8192x4096 .f32) (X : Vec Ideal S8192x64 .f32) (e : Fin 4096) :
    (fun (j : Fin 64) => refEdgeMsg A X (refEdgeDeg A) (ix2 e j)) = Cert.Spec.edgeMsg A (fun n j => X (ix2 n j)) e := by
  funext j
  unfold refEdgeMsg
  rw [refMsg_apply, refEdgeDeg_apply]
  exact congrArg (Ideal.div · _) (Finset.sum_congr rfl fun k _ => by rw [transpose_ix2_apply])

theorem refNodeMsg_fun (A : Vec Ideal S8192x4096 .f32) (Y : Vec Ideal S4096x64 .f32) (n : Fin 8192) :
    (fun (j : Fin 64) => refNodeMsg A Y (refNodeDeg A) (ix2 n j)) = Cert.Spec.nodeMsg A (fun e j => Y (ix2 e j)) n := by
  funext j
  unfold refNodeMsg
  rw [refMsg_apply, refNodeDeg_apply]
  rfl

section Net
variable (A : Vec Ideal S8192x4096 .f32) (n0 : Vec Ideal S8192x64 .f32) (e0 : Vec Ideal S4096x64 .f32)
  (eW : Vec Ideal S2x64x128 .f32) (eb eg es : Vec Ideal S2x64 .f32)
  (nW : Vec Ideal S2x64x128 .f32) (nb ng ns : Vec Ideal S2x64 .f32) (dW : Vec Ideal S1x64 .f32) (db : Vec Ideal S1 .f32)

theorem refEdges1_fun :
    (fun (e : Fin 4096) (j : Fin 64) => refEdges1 A n0 e0 eW eb eg es (ix2 e j)) = Cert.Spec.edges1 A n0 e0 eW eb eg es := by
  funext e j
  unfold refEdges1 Cert.Spec.edges1
  rw [refUpdate_apply, refEdgeMsg_fun]

theorem refNodes1_fun :
    (fun (n : Fin 8192) (j : Fin 64) => refNodes1 A n0 e0 eW eb eg es nW nb ng ns (ix2 n j))
      = Cert.Spec.nodesFrom A n0 (Cert.Spec.edges1 A n0 e0 eW eb eg es) nW nb ng ns := by
  funext n j
  unfold refNodes1 Cert.Spec.nodesFrom
  rw [refUpdate_apply, refNodeMsg_fun, refEdges1_fun]

theorem refEdges2_apply (e : Fin 4096) (j : Fin 64) :
    refEdges2 A n0 e0 eW eb eg es nW nb ng ns (ix2 e j)
      = Cert.Spec.edgesFrom A n0 (Cert.Spec.edges1 A n0 e0 eW eb eg es) eW eb eg es nW nb ng ns e j := by
  unfold refEdges2 Cert.Spec.edgesFrom
  rw [refUpdate_apply, refEdgeMsg_fun, refNodes1_fun, congrFun (refEdges1_fun A n0 e0 eW eb eg es) e]

theorem refLogits_apply (e : Fin 4096) :
    refLogits A n0 e0 eW eb eg es nW nb ng ns dW db (ix2 e 0)
      = Cert.Spec.logitFrom A n0 (Cert.Spec.edges1 A n0 e0 eW eb eg es) eW eb eg es nW nb ng ns dW db e := by
  unfold refLogits Cert.Spec.logitFrom
  rw [addf_apply, bcast_of_row, bcast_row]
  exact congrArg (· + _) ((dotGeneral_plain_apply none _ _ e 0).trans
    (Finset.sum_congr rfl fun k _ => by rw [transpose_ix2_apply, refEdges2_apply]))

theorem refOut_apply (e : Fin 4096) :
    refOut A n0 e0 eW eb eg es nW nb ng ns dW db (ix1 e)
      = Cert.Spec.probFrom A n0 (Cert.Spec.edges1 A n0 e0 eW eb eg es) eW eb eg es nW nb ng ns dW db e := by
  unfold refOut Cert.Spec.probFrom Cert.Spec.slope
  rw [cast_col, hostDivf_apply, addf_apply, hostExp_apply, hostNegf_apply, mulf_apply,
    broadcastInDim_scalar_apply, broadcastInDim_scalar_apply,
    constant_apply, constant_apply, refLogits_apply, Ideal.ofBits_one_f32]
  rfl

/-- Entry by entry the reference's result is the specification's probability. -/
theorem refOut_eq :
    refOut A n0 e0 eW eb eg es nW nb ng ns dW db = Cert.Spec.probs A n0 e0 eW eb eg es nW nb ng ns dW db := by
  funext i
  rw [eq_ix1 i]
  exact refOut_apply A n0 e0 eW eb eg es nW nb ng ns dW db (i 0)

end Net

end Cert.ReferenceIdeal.Hand

end
-- ==== Proof.lean ====
import proofs.«110987_g5892695130345_cont_sun_m_578_16_alg».proof.Defs
import proofs.«110987_g5892695130345_cont_sun_m_578_16_alg».proof.Proof.Gen.Kernel
import proofs.«110987_g5892695130345_cont_sun_m_578_16_alg».proof.Proof.Gen.KernelIdeal
import proofs.«110987_g5892695130345_cont_sun_m_578_16_alg».proof.Proof.Gen.ReferenceIdeal
import proofs.«110987_g5892695130345_cont_sun_m_578_16_alg».proof.Proof.Gen.Pre_finite_inputs
import proofs.«110987_g5892695130345_cont_sun_m_578_16_alg».proof.Proof.BitsSegments
import proofs.«110987_g5892695130345_cont_sun_m_578_16_alg».proof.Proof.SegmentsValue
import proofs.«110987_g5892695130345_cont_sun_m_578_16_alg».proof.Proof.Bridge
import proofs.«110987_g5892695130345_cont_sun_m_578_16_alg».proof.Proof.RefRun
import proofs.«110987_g5892695130345_cont_sun_m_578_16_alg».proof.Proof.RefMath
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Hand.frame (F := Bits) m ρ

theorem frame_kernelIdeal [Cert.KernelIdeal.Facts] [Cert.Pre_finite_inputs.Facts] : Cert.frame_KernelIdeal :=
  fun m ρ _ => Cert.KernelIdeal.Hand.frame (F := Ideal) m ρ

theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Hand.run m ρ)

/-- Both programs compute `Cert.Spec.probs` of their arguments, and the arguments agree. -/
theorem algebraic [Cert.KernelIdeal.Facts] [Cert.ReferenceIdeal.Facts] [Cert.Pre_finite_inputs.Facts] : Cert.algebraic_KernelIdeal_ReferenceIdeal := by
  intro m ρ m' ρ' _ hagree
  refine ⟨_, (θ_run Cert.KernelIdeal.defs _ _).mono (fun _ h c => ⟨(h c).1.trans (Cert.KernelIdeal.Hand.kerOut_eq ..), (h c).2⟩)
    (Cert.KernelIdeal.Hand.run_result (F := Ideal) m ρ), ?_⟩
  refine (θ_run Cert.ReferenceIdeal.defs _ _).mono (fun _ h c => ⟨(h c).1.trans ?_, (h c).2⟩) (Cert.ReferenceIdeal.Hand.run m' ρ')
  obtain ⟨h0, h1, h2, h3, h4, h5, h6, h7, h8, h9, h10, h11, h12⟩ := hagree c
  rw [h0, h1, h2, h3, h4, h5, h6, h7, h8, h9, h10, h11, h12]
  exact Cert.ReferenceIdeal.Hand.refOut_eq ..

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
